-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x22 : Shape := ⟨2, ![100000, 22]⟩
abbrev S2x1600000 : Shape := ⟨2, ![2, 1600000]⟩
abbrev S100000 : Shape := ⟨1, ![100000]⟩
abbrev S22x64 : Shape := ⟨2, ![22, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x22 : S_.BroadcastsInDim S100000x22 (![] : Fin 0 → Fin S100000x22.rank)
  reducesTo_S100000x22_S_d0_1 : S100000x22.ReducesTo [0, 1] S_
  h_S_ : 0 < S_.numel
  bcast_S_S22x64 : S_.BroadcastsInDim S22x64 (![] : Fin 0 → Fin S22x64.rank)
  reducesTo_S22x64_S_d0_1 : S22x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S64 .f32) (main_arg14 : FVec F S64 .f32) (main_arg15 : FVec F S64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x128 .f32) (main_arg8 : FVec F S128 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x22 .f32) (main_arg1 : IVec S2x1600000 32) (main_arg2 : IVec S100000 32) (main_arg3 : FVec F S22x64 .f32) (main_arg4 : FVec F S64 .f32) (main_arg5 : FVec F S64x64 .f32) (main_arg6 : FVec F S64 .f32) (main_arg7 : FVec F S64x128 .f32) (main_arg8 : FVec F S128 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) : IVec S_ 1 :=
  let main_v0 : FVec F S100000x22 .f32 := Host.absf main_arg0
  let main_cst : FVec F S_ .f32 := constant S_ .f32 0x7F800000#32
  let main_v1 : FVec F S100000x22 .f32 := broadcastInDim S100000x22 ![] bcast_S_S100000x22 main_cst
  let main_v2 : IVec S100000x22 1 := cmpf .olt main_v0 main_v1
  let main_c : IVec S_ 1 := constantI S_ 1 1#1
  let main_v3 : IVec S_ 1 := (fun x v => Host.reduce IntOp.andi x v reducesTo_S100000x22_S_d0_1 h_S_) main_v2 main_c
  let main_v4 : FVec F S22x64 .f32 := Host.absf main_arg3
  let main_cst_0 : FVec F S_ .f32 := constant S_ .f32 0x7F800000#32
  let main_v5 : FVec F S22x64 .f32 := broadcastInDim S22x64 ![] bcast_S_S22x64 main_cst_0
  let main_v6 : IVec S22x64 1 := cmpf .olt main_v4 main_v5
  let main_c_1 : IVec S_ 1 := constantI S_ 1 1#1
  let main_v7 : IVec S_ 1 := (fun x v => Host.reduce IntOp.andi x v reducesTo_S22x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x22 : Shape := ⟨2, ![100000, 22]⟩
abbrev S2x1600000 : Shape := ⟨2, ![2, 1600000]⟩
abbrev S100000 : Shape := ⟨1, ![100000]⟩
abbrev S22x64 : Shape := ⟨2, ![22, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x22 : Shape := ⟨2, ![5000, 22]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S100000x128 : Shape := ⟨2, ![100000, 128]⟩
abbrev S5000x128 : Shape := ⟨2, ![5000, 128]⟩
abbrev S1600000x128 : Shape := ⟨2, ![1600000, 128]⟩
abbrev S1x128 : Shape := ⟨2, ![1, 128]⟩
abbrev S256x128 : Shape := ⟨2, ![256, 128]⟩
abbrev S256x1 : Shape := ⟨2, ![256, 1]⟩
abbrev S5000x256 : Shape := ⟨2, ![5000, 256]⟩

abbrev nBuf : Space → Nat
  | .hbm => 125
  | .vmem => 58
  | .smem => 0
  | _ => 0

abbrev bufTy : (tb : Table) → Fin (tcTables nBuf tb) → BufTy
  | .hbm, ⟨0, _⟩ => ⟨S100000x22, .f32⟩
  | .hbm, ⟨1, _⟩ => ⟨S2x1600000, .i32⟩
  | .hbm, ⟨2, _⟩ => ⟨S100000, .i32⟩
  | .hbm, ⟨3, _⟩ => ⟨S22x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x1, .f32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S100000x64, .f32⟩
  | .hbm, ⟨98, _⟩ => ⟨S100000x128, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x128, .f32⟩
  | .hbm, ⟨108, _⟩ => ⟨S1600000x1, .f32⟩
  | .hbm, ⟨109, _⟩ => ⟨S1600000x128, .f32⟩
  | .hbm, ⟨110, _⟩ => ⟨S1600000x128, .f32⟩
  | .hbm, ⟨111, _⟩ => ⟨S_, .f32⟩
  | .hbm, ⟨112, _⟩ => ⟨S100000x128, .f32⟩
  | .hbm, ⟨113, _⟩ => ⟨S1600000x1, .i32⟩
  | .hbm, ⟨114, _⟩ => ⟨S100000x128, .f32⟩
  | .hbm, ⟨115, _⟩ => ⟨S1x128, .f32⟩
  | .hbm, ⟨116, _⟩ => ⟨S100000x128, .f32⟩
  | .hbm, ⟨117, _⟩ => ⟨S100000x1, .i32⟩
  | .hbm, ⟨118, _⟩ => ⟨S256x128, .f32⟩
  | .hbm, ⟨119, _⟩ => ⟨S256x1, .f32⟩
  | .hbm, ⟨120, _⟩ => ⟨S_, .f32⟩
  | .hbm, ⟨121, _⟩ => ⟨S256x1, .f32⟩
  | .hbm, ⟨122, _⟩ => ⟨S256x1, .f32⟩
  | .hbm, ⟨123, _⟩ => ⟨S256x128, .f32⟩
  | .hbm, ⟨124, _⟩ => ⟨S256x128, .f32⟩
  | .local _ .vmem, ⟨0, _⟩ => ⟨S5000x22, .f32⟩
  | .local _ .vmem, ⟨1, _⟩ => ⟨S5000x22, .f32⟩
  | .local _ .vmem, ⟨2, _⟩ => ⟨S22x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x1, .i32⟩
  | .local _ .vmem, ⟨51, _⟩ => ⟨S5000x1, .i32⟩
  | .local _ .vmem, ⟨52, _⟩ => ⟨S5000x128, .f32⟩
  | .local _ .vmem, ⟨53, _⟩ => ⟨S5000x128, .f32⟩
  | .local _ .vmem, ⟨54, _⟩ => ⟨S256x128, .f32⟩
  | .local _ .vmem, ⟨55, _⟩ => ⟨S256x1, .f32⟩
  | .local _ .vmem, ⟨56, _⟩ => ⟨S256x128, .f32⟩
  | .local _ .vmem, ⟨57, _⟩ => ⟨S256x1, .f32⟩
  | _, _ => ⟨S100000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_11 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85_0 : Ref sig .tc := ⟨.hbm, 118, rfl⟩
abbrev main_v85_1 : Ref sig .tc := ⟨.hbm, 119, rfl⟩
abbrev main_cst_14 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_scratch0 : Ref sig .tc := ⟨.vmem, 56, rfl⟩
abbrev cc6_scratch1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x22_S5000x22_0_0 : ∀ a, (![0, 0] : Fin 2 → Nat) a + S5000x22.size a ≤ S5000x22.size a
  h_S5000x22 : 0 < S5000x22.numel
  bitsLt_bf16_f32 : FTy.bits .bf16 < FTy.bits .f32
  inb_S22x64_S22x64_0_0 : ∀ a, (![0, 0] : Fin 2 → Nat) a + S22x64.size a ≤ S22x64.size a
  h_S22x64 : 0 < S22x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S5000x256_d1_w32 : S5000x256.Iotas .tc 32 [1]
  broadcasts_S5000x1_S5000x256 : S5000x1.Broadcasts S5000x256
  natLt_1_32 : 1 < 32
  bcast_S_S256x1 : S_.BroadcastsInDim S256x1 (![] : Fin 0 → Fin S256x1.rank)
  bcast_S256x1_S256x128_0_1 : S256x1.BroadcastsInDim S256x128 (![0, 1] : Fin 2 → Fin S256x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x22_S22x64_S5000x64_1_0_0_1_n_n_wf : DotDims.WF S5000x22 S22x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S5000x128_S256x128_0_0_1_1_n_n_wf : DotDims.WF S5000x256 S5000x128 S256x128 [0] [0] [1] [1] [] []
  dot_S5000x256_S5000x1_S256x1_0_0_1_1_n_n_wf : DotDims.WF S5000x256 S5000x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x22.size a ≤ S100000x22.size a
  hwx0_0 : ∀ i : grid0.Coords, EltTy.bits .f32 = 32 ∨ (Rect.block (s := S100000x22) S5000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x64.size a ≤ S22x64.size a
  hwx0_1 : ∀ i : grid0.Coords, EltTy.bits .f32 = 32 ∨ (Rect.block (s := S22x64) S22x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S100000x1.size a
  hwx6_0 : ∀ i : grid6.Coords, EltTy.bits .i32 = 32 ∨ (Rect.block (s := S100000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x1.size a ≤ S256x1.size a
  hwx6_3 : ∀ i : grid6.Coords, EltTy.bits .f32 = 32 ∨ (Rect.block (s := S256x1) S256x1.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x22_S22x64_S5000x64_1_0_0_1_n_n : DotDims S5000x22 S22x64 S5000x64 where
  lhsContracting := [1]
  rhsContracting := [0]
  lhsNonContracting := [0]
  rhsNonContracting := [1]
  lhsBatch := []
  rhsBatch := []
  wf := dot_S5000x22_S22x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf

abbrev win0_0 : Pipeline.Window sig grid0 :=
  Pipeline.Window.ofSpec (Memref.whole main_arg0) S5000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S22x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v66) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v67) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v67) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v84) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85_0) S256x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85_1) S256x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun i => !(k6_cond2 i == 1#1) | 3 => fun i => !(k6_cond2 i == 1#1) | ⟨_ + 4, h⟩ => absurd h (Nat.not_lt.2 (Nat.le_add_left _ _))

class Facts : Prop extends Facts₀ where

variable [Facts]
-- ==== ReferenceIdeal.lean ====
abbrev S100000x22 : Shape := ⟨2, ![100000, 22]⟩
abbrev S2x1600000 : Shape := ⟨2, ![2, 1600000]⟩
abbrev S100000 : Shape := ⟨1, ![100000]⟩
abbrev S22x64 : Shape := ⟨2, ![22, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x128 : Shape := ⟨2, ![100000, 128]⟩
abbrev S1600000x128 : Shape := ⟨2, ![1600000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 180
  | .vmem => 0
  | .smem => 0
  | _ => 0

abbrev hbmTy0_0 (i : Nat) : BufTy := match i % 128 with
  | 0 => ⟨S100000x22, .f32⟩
  | 1 => ⟨S2x1600000, .i32⟩
  | 2 => ⟨S100000, .i32⟩
  | 3 => ⟨S22x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S100000, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x1, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x1, .f32⟩
  | 105 => ⟨S1600000x64, .f32⟩
  | 106 => ⟨S1600000x64, .f32⟩
  | 107 => ⟨S_, .f32⟩
  | 108 => ⟨S100000x64, .f32⟩
  | 109 => ⟨S1600000x1, .i32⟩
  | 110 => ⟨S100000x64, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x22, .f32⟩

abbrev hbmTy0_1 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S1600000x1, .f32⟩
  | 20 => ⟨S1600000x128, .f32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S_, .f32⟩
  | 37 => ⟨S256x128, .f32⟩
  | 38 => ⟨S100000x1, .i32⟩
  | 39 => ⟨S256x128, .f32⟩
  | 40 => ⟨S_, .f32⟩
  | 41 => ⟨S100000, .f32⟩
  | 42 => ⟨S_, .f32⟩
  | 43 => ⟨S256, .f32⟩
  | 44 => ⟨S100000x1, .i32⟩
  | 45 => ⟨S256, .f32⟩
  | 46 => ⟨S_, .f32⟩
  | 47 => ⟨S256, .f32⟩
  | 48 => ⟨S256, .f32⟩
  | 49 => ⟨S256x1, .f32⟩
  | 50 => ⟨S256x128, .f32⟩
  | 51 => ⟨S256x128, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | _, _ => ⟨S100000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call0_cst : Ref sig .tc := ⟨.hbm, 91, rfl⟩
abbrev main_call0_v0 : Ref sig .tc := ⟨.hbm, 92, rfl⟩
abbrev main_v63 : Ref sig .tc := ⟨.hbm, 93, rfl⟩
abbrev main_v64 : Ref sig .tc := ⟨.hbm, 94, rfl⟩
abbrev main_c_9 : Ref sig .tc := ⟨.hbm, 95, rfl⟩
abbrev main_v65 : Ref sig .tc := ⟨.hbm, 96, rfl⟩
abbrev main_v66 : Ref sig .tc := ⟨.hbm, 97, rfl⟩
abbrev main_c_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_call1_cst : Ref sig .tc := ⟨.hbm, 134, rfl⟩
abbrev main_call1_v0 : Ref sig .tc := ⟨.hbm, 135, rfl⟩
abbrev main_v100 : Ref sig .tc := ⟨.hbm, 136, rfl⟩
abbrev main_v101 : Ref sig .tc := ⟨.hbm, 137, rfl⟩
abbrev main_c_13 : Ref sig .tc := ⟨.hbm, 138, rfl⟩
abbrev main_v102 : Ref sig .tc := ⟨.hbm, 139, rfl⟩
abbrev main_v103 : Ref sig .tc := ⟨.hbm, 140, rfl⟩
abbrev main_c_14 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_15 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_call2_cst : Ref sig .tc := ⟨.hbm, 161, rfl⟩
abbrev main_call2_v0 : Ref sig .tc := ⟨.hbm, 162, rfl⟩
abbrev main_v122 : Ref sig .tc := ⟨.hbm, 163, rfl⟩
abbrev main_cst_16 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_17 : Ref sig .tc := ⟨.hbm, 168, rfl⟩
abbrev main_v126 : Ref sig .tc := ⟨.hbm, 169, rfl⟩
abbrev main_cst_18 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_19 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x22_S22x64_S100000x64_1_0_0_1_n_n_wf : DotDims.WF S100000x22 S22x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x22_S22x64_S100000x64_1_0_0_1_n_n : DotDims S100000x22 S22x64 S100000x64 where
  lhsContracting := [1]
  rhsContracting := [0]
  lhsNonContracting := [0]
  rhsNonContracting := [1]
  lhsBatch := []
  rhsBatch := []
  wf := dot_S100000x22_S22x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.KB.Region0.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x22 := Rect.unit (s := S5000x22) ![0, 0] S5000x22.size inb_S5000x22_S5000x22_0_0
abbrev rW0 : Rect S22x64 := Rect.unit (s := S22x64) ![0, 0] S22x64.size inb_S22x64_S22x64_0_0
abbrev rO0 : Rect S5000x64 := Rect.unit (s := S5000x64) ![0, 0] S5000x64.size inb_S5000x64_S5000x64_0_0

/-- A block of rows times the whole weight matrix. -/
def prod0 (x : Vec F S5000x22 .f32) (wt : Vec F S22x64 .f32) : Vec F S5000x64 .f32 :=
  View.canon [⟨rO0, k0_pay1 (View.ld x rX0) (View.ld wt rW0)⟩]

theorem covers0 (p : Vec F S5000x64 .f32) (y : S5000x64.Idx) :
    ∃ pc ∈ ([⟨rO0, p⟩] : List (View.Piece (Elt F) S5000x64 .f32)), y ∈ pc.1.set :=
  View.cover_of_tiled [⟨rO0, p⟩] S5000x64.size (by rfl) y

set_option maxHeartbeats 1000000 in

/-- The body leaves its inputs as found and their product in the result. -/
theorem triple0 (c : Dev nD) (E : Set ℕ) (i : grid0.Coords) (arg1 : Memref sig .tc .vmem S5000x22 .f32) (harg1 : arg1.IsWhole)
    (arg2 : Memref sig .tc .vmem S22x64 .f32) (harg2 : arg2.IsWhole) (arg3 : Memref sig .tc .vmem S5000x64 .f32) (harg3 : arg3.IsWhole)
    (x : Vec F S5000x22 .f32) (wt : Vec F S22x64 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt ∗ owns (c : Thread nD τ) arg3 fullShare (prod0 x wt)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-- Row block `t` of the result is row block `t` of the input times the weight matrix. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem after0_2 (c : Dev nD) (t : Fin cfg0.N) : (dat0 V c).after 2 t = prod0 (blk0 V c 0 t) (blk0 V c 1 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl,
    after0_2]
  show _ ⊢ wp _ _ _ (bodyAt0 t) _
  unfold bodyAt0
  iintro ⟨HΦ, Ho, ⟨%d0, H0⟩, ⟨%d1, H1⟩, ⟨%d2, H2⟩⟩
  iapply (triple0 c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.KB.Region1.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rM1 : Rect S5000x64 := Rect.unit (s := S5000x64) ![0, 0] S5000x64.size inb_S5000x64_S5000x64_0_0
abbrev rC1 : Rect S5000x1 := Rect.unit (s := S5000x1) ![0, 0] S5000x1.size inb_S5000x1_S5000x1_0_0
abbrev rR1 : Rect S1x64 := Rect.unit (s := S1x64) ![0, 0] S1x64.size inb_S1x64_S1x64_0_0

/-- On a block of rows: aggregate plus scaled self term plus bias, normalised with the running statistics, clamped at zero. -/
def comb1 (a h : Vec F S5000x64 .f32) (d : Vec F S5000x1 .f32) (b g be mm vv : Vec F S1x64 .f32) : Vec F S5000x64 .f32 :=
  View.canon [⟨rM1, k1_pay1 (View.ld a rM1) (View.ld h rM1) (View.ld d rC1) (View.ld b rR1) (View.ld mm rR1) (View.ld vv rR1)
    (View.ld g rR1) (View.ld be rR1)⟩]

theorem covers1 (p : Vec F S5000x64 .f32) (y : S5000x64.Idx) :
    ∃ pc ∈ ([⟨rM1, p⟩] : List (View.Piece (Elt F) S5000x64 .f32)), y ∈ pc.1.set :=
  View.cover_of_tiled [⟨rM1, p⟩] S5000x64.size (by rfl) y

set_option maxHeartbeats 4000000 in

/-- The body leaves its inputs as found and the combined block in the result. -/
theorem triple1 (c : Dev nD) (E : Set ℕ) (i : grid1.Coords)
    (mA : Memref sig .tc .vmem S5000x64 .f32) (hmA : mA.IsWhole) (mH : Memref sig .tc .vmem S5000x64 .f32) (hmH : mH.IsWhole)
    (mD : Memref sig .tc .vmem S5000x1 .f32) (hmD : mD.IsWhole) (mB : Memref sig .tc .vmem S1x64 .f32) (hmB : mB.IsWhole)
    (mG : Memref sig .tc .vmem S1x64 .f32) (hmG : mG.IsWhole) (mE : Memref sig .tc .vmem S1x64 .f32) (hmE : mE.IsWhole)
    (mM : Memref sig .tc .vmem S1x64 .f32) (hmM : mM.IsWhole) (mV : Memref sig .tc .vmem S1x64 .f32) (hmV : mV.IsWhole)
    (mO : Memref sig .tc .vmem S5000x64 .f32) (hmO : mO.IsWhole)
    (a h : Vec F S5000x64 .f32) (d : Vec F S5000x1 .f32) (b g be mm vv : Vec F S1x64 .f32) (K : PUnit → sProp 𝕄) :
    iprop(owns (c : Thread nD τ) mA fullShare a ∗ owns (c : Thread nD τ) mH fullShare h ∗ owns (c : Thread nD τ) mD fullShare d
        ∗ owns (c : Thread nD τ) mB fullShare b ∗ owns (c : Thread nD τ) mG fullShare g ∗ owns (c : Thread nD τ) mE fullShare be
        ∗ owns (c : Thread nD τ) mM fullShare mm ∗ owns (c : Thread nD τ) mV fullShare vv ∗ (∃ o, owns (c : Thread nD τ) mO fullShare o)
        ∗ (iprop(owns (c : Thread nD τ) mA fullShare a ∗ owns (c : Thread nD τ) mH fullShare h ∗ owns (c : Thread nD τ) mD fullShare d
            ∗ owns (c : Thread nD τ) mB fullShare b ∗ owns (c : Thread nD τ) mG fullShare g ∗ owns (c : Thread nD τ) mE fullShare be
            ∗ owns (c : Thread nD τ) mM fullShare mm ∗ owns (c : Thread nD τ) mV fullShare vv
            ∗ owns (c : Thread nD τ) mO fullShare (comb1 a h d b g be mm vv)) -∗ K ⟨⟩))
      ⊢ wp frame (wpE (defs₀ (F := F)) Variants.none c none) E (cc1__combine_bn_kernel i mA hmA mH hmH mD hmD mB hmB mG hmG mE hmE mM hmM mV hmV mO hmO) K := by
  simp only [cc1__combine_bn_kernel_eq_skeleton]; unfold cc1__combine_bn_kernel_skel
  unfold owns
  iintro ⟨⟨%fa, %hfa, Ha⟩, ⟨%fh, %hfh, Hh⟩, ⟨%fd, %hfd, Hd⟩, ⟨%fb, %hfb, Hb⟩, ⟨%fg, %hfg, Hg⟩, ⟨%fe, %hfe, He⟩, ⟨%fm, %hfm, Hm⟩, ⟨%fv, %hfv, Hv⟩, ⟨%o, %fo, -, Ho⟩, Hk⟩
  subst hfa; subst hfh; subst hfd; subst hfb; subst hfg; subst hfe; subst hfm; subst hfv
  sl_exec
  sl_step
  iapply Hk
  isplitl [Ha]
  · iexists fa; isplitr; · ipureintro; rfl
    iexact Ha
  isplitl [Hh]
  · iexists fh; isplitr; · ipureintro; rfl
    iexact Hh
  isplitl [Hd]
  · iexists fd; isplitr; · ipureintro; rfl
    iexact Hd
  isplitl [Hb]
  · iexists fb; isplitr; · ipureintro; rfl
    iexact Hb
  isplitl [Hg]
  · iexists fg; isplitr; · ipureintro; rfl
    iexact Hg
  isplitl [He]
  · iexists fe; isplitr; · ipureintro; rfl
    iexact He
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers1 _)

def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => comb1 (blk1 V c 0 t) (blk1 V c 1 t) (blk1 V c 2 t) (blk1 V c 3 t) (blk1 V c 4 t) (blk1 V c 5 t) (blk1 V c 6 t) (blk1 V c 7 t)
  Φ _ := Pipeline.ΦA spec1 c
  q _ := fullShare
  owed _ := 0

theorem after1_8 (c : Dev nD) (t : Fin cfg1.N) : (dat1 V c).after 8 t = comb1 (blk1 V c 0 t) (blk1 V c 1 t) (blk1 V c 2 t) (blk1 V c 3 t) (blk1 V c 4 t) (blk1 V c 5 t) (blk1 V c 6 t) (blk1 V c 7 t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = blk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = blk1 V c 7 t :=
  ((dat1 V c).before_in_eq_fetched 7 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_8]
  show _ ⊢ wp _ _ _ (bodyAt1 t) _
  unfold bodyAt1
  iintro ⟨HΦ, Hw, ⟨%da, Ha⟩, ⟨%dh, Hh⟩, ⟨%dd, Hd⟩, ⟨%db, Hb⟩, ⟨%dg, Hg⟩, ⟨%de, He⟩, ⟨%dm, Hm⟩, ⟨%dv, Hv⟩, ⟨%dz, Ho⟩⟩
  iapply (triple1 c Set.univ (grid1.coords t) _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) _)
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  isplitl [Ho]; · iexists _; iexact Ho
  iintro ⟨Ha, Hh, Hd, Hb, Hg, He, Hm, Hv, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  iexact Ho

end Cert.Kernel.Hand

end
-- ==== Proof.KB.Region2.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rO2 : Rect S5000x64 := Rect.unit (s := S5000x64) ![0, 0] S5000x64.size inb_S5000x64_S5000x64_0_0

/-- A block of rows times the whole weight matrix. -/
def prod2 (x : Vec F S5000x64 .f32) (wt : Vec F S64x64 .f32) : Vec F S5000x64 .f32 :=
  View.canon [⟨rO2, k2_pay1 (View.ld x rX2) (View.ld wt rW2)⟩]

theorem covers2 (p : Vec F S5000x64 .f32) (y : S5000x64.Idx) :
    ∃ pc ∈ ([⟨rO2, p⟩] : List (View.Piece (Elt F) S5000x64 .f32)), y ∈ pc.1.set :=
  View.cover_of_tiled [⟨rO2, p⟩] S5000x64.size (by rfl) y

set_option maxHeartbeats 1000000 in

/-- The body leaves its inputs as found and their product in the result. -/
theorem triple2 (c : Dev nD) (E : Set ℕ) (i : grid2.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt ∗ owns (c : Thread nD τ) arg3 fullShare (prod2 x wt)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-- Row block `t` of the result is row block `t` of the input times the weight matrix. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem after2_2 (c : Dev nD) (t : Fin cfg2.N) : (dat2 V c).after 2 t = prod2 (blk2 V c 0 t) (blk2 V c 1 t) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1]
  rw [show (dat2 V c).Φ t.succ = (dat2 V c).Φ t.castSucc from rfl,
    show (dat2 V c).owesAt () t.succ = (dat2 V c).owesAt () t.castSucc from rfl,
    after2_2]
  show _ ⊢ wp _ _ _ (bodyAt2 t) _
  unfold bodyAt2
  iintro ⟨HΦ, Ho, ⟨%d0, H0⟩, ⟨%d1, H1⟩, ⟨%d2, H2⟩⟩
  iapply (triple2 c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.KB.Region3.lean ====
import proofs.«419905_j28260884807710_1_alg».proof.Proof.KB.Region1
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (Pipeline.UD sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => comb1 (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem after3_8 (c : Dev nD) (t : Fin cfg3.N) : (dat3 V c).after 8 t = comb1 (blk3 V c 0 t) (blk3 V c 1 t) (blk3 V c 2 t) (blk3 V c 3 t) (blk3 V c 4 t) (blk3 V c 5 t) (blk3 V c 6 t) (blk3 V c 7 t) := by dsimp only [dat3]

theorem before3_0 (c : Dev nD) (t : Fin cfg3.N) (d) : (dat3 V c).before 0 t d = blk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = blk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = blk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = blk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = blk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = blk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = blk3 V c 6 t :=
  ((dat3 V c).before_in_eq_fetched 6 rfl (fun _ => rfl) (fun _ _ _ => rfl) (fun _ => rfl) t d).trans rfl
theorem before3_7 (c : Dev nD) (t : Fin cfg3.N) (d) : (dat3 V c).before 7 t d = blk3 V c 7 t :=
  ((dat3 V c).before_in_eq_fetched 7 rfl (fun _ => rfl) (fun _ _ _ => rfl) (fun _ => rfl) t d).trans rfl

/-- The second combine has the first's body at the same shapes, so the first's triple serves. -/
theorem body_obligation3 (c : Dev nD) : BodyObligation (dat3 (F := F) V c) (defs₀ (F := F)) Variants.none () Set.univ := fun t => by
  rw [bigSep_W3, bigSep_W3]
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_8]
  show _ ⊢ wp _ _ _ (bodyAt3 t) _
  unfold bodyAt3
  rw [show @cc3__combine_bn_kernel F _ _ = @cc1__combine_bn_kernel F _ _ from rfl]
  iintro ⟨HΦ, Hw, ⟨%da, Ha⟩, ⟨%dh, Hh⟩, ⟨%dd, Hd⟩, ⟨%db, Hb⟩, ⟨%dg, Hg⟩, ⟨%de, He⟩, ⟨%dm, Hm⟩, ⟨%dv, Hv⟩, ⟨%dz, Ho⟩⟩
  iapply (triple1 c Set.univ (grid3.coords t) _ _ _ _ _ _ _ _ _ _ _ _ _ _ _ _ _ _
    (blk3 V c 0 t) (blk3 V c 1 t) (blk3 V c 2 t) (blk3 V c 3 t) (blk3 V c 4 t) (blk3 V c 5 t) (blk3 V c 6 t) (blk3 V c 7 t) _)
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  isplitl [Ho]; · iexists _; iexact Ho
  iintro ⟨Ha, Hh, Hd, Hb, Hg, He, Hm, Hv, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  iexact Ho

end Cert.Kernel.Hand

end
-- ==== Proof.KB.Region4.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rX4 : Rect S5000x64 := Rect.unit (s := S5000x64) ![0, 0] S5000x64.size inb_S5000x64_S5000x64_0_0
abbrev rW4 : Rect S64x128 := Rect.unit (s := S64x128) ![0, 0] S64x128.size inb_S64x128_S64x128_0_0
abbrev rO4 : Rect S5000x128 := Rect.unit (s := S5000x128) ![0, 0] S5000x128.size inb_S5000x128_S5000x128_0_0

/-- A block of rows times the whole weight matrix. -/
def prod4 (x : Vec F S5000x64 .f32) (wt : Vec F S64x128 .f32) : Vec F S5000x128 .f32 :=
  View.canon [⟨rO4, k4_pay1 (View.ld x rX4) (View.ld wt rW4)⟩]

theorem covers4 (p : Vec F S5000x128 .f32) (y : S5000x128.Idx) :
    ∃ pc ∈ ([⟨rO4, p⟩] : List (View.Piece (Elt F) S5000x128 .f32)), y ∈ pc.1.set :=
  View.cover_of_tiled [⟨rO4, p⟩] S5000x128.size (by rfl) y

set_option maxHeartbeats 1000000 in

/-- The body leaves its inputs as found and their product in the result. -/
theorem triple4 (c : Dev nD) (E : Set ℕ) (i : grid4.Coords) (arg1 : Memref sig .tc .vmem S5000x64 .f32) (harg1 : arg1.IsWhole)
    (arg2 : Memref sig .tc .vmem S64x128 .f32) (harg2 : arg2.IsWhole) (arg3 : Memref sig .tc .vmem S5000x128 .f32) (harg3 : arg3.IsWhole)
    (x : Vec F S5000x64 .f32) (wt : Vec F S64x128 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt ∗ owns (c : Thread nD τ) arg3 fullShare (prod4 x wt)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers4 _)

/-- Row block `t` of the result is row block `t` of the input times the weight matrix. -/
def dat4 (c : Dev nD) : Dat τ (Elt F) Unit ℕ (Pipeline.UD sig nD τ) ℕ cfg4 c where
  A w := V c (Pipeline.arrRef spec4 w)
  after w t := match w with
    | ⟨0, _⟩ => blk4 V c 0 t
    | ⟨1, _⟩ => blk4 V c 1 t
    | ⟨2, _⟩ => prod4 (blk4 V c 0 t) (blk4 V c 1 t)
  Φ _ := Pipeline.ΦA spec4 c
  q _ := fullShare
  owed _ := 0

theorem after4_2 (c : Dev nD) (t : Fin cfg4.N) : (dat4 V c).after 2 t = prod4 (blk4 V c 0 t) (blk4 V c 1 t) := by dsimp only [dat4]

theorem before4_0 (c : Dev nD) (t : Fin cfg4.N) (d) : (dat4 V c).before 0 t d = blk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = blk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1]
  rw [show (dat4 V c).Φ t.succ = (dat4 V c).Φ t.castSucc from rfl,
    show (dat4 V c).owesAt () t.succ = (dat4 V c).owesAt () t.castSucc from rfl,
    after4_2]
  show _ ⊢ wp _ _ _ (bodyAt4 t) _
  unfold bodyAt4
  iintro ⟨HΦ, Ho, ⟨%d0, H0⟩, ⟨%d1, H1⟩, ⟨%d2, H2⟩⟩
  iapply (triple4 c Set.univ (grid4.coords t) _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.KB.Region5.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rM5 : Rect S5000x128 := Rect.unit (s := S5000x128) ![0, 0] S5000x128.size inb_S5000x128_S5000x128_0_0
abbrev rD5 : Rect S5000x1 := Rect.unit (s := S5000x1) ![0, 0] S5000x1.size inb_S5000x1_S5000x1_0_0
abbrev rB5 : Rect S1x128 := Rect.unit (s := S1x128) ![0, 0] S1x128.size inb_S1x128_S1x128_0_0

/-- On a block of rows: aggregate plus scaled self term plus bias, clamped at zero. -/
def comb5 (a h : Vec F S5000x128 .f32) (d : Vec F S5000x1 .f32) (b : Vec F S1x128 .f32) : Vec F S5000x128 .f32 :=
  View.canon [⟨rM5, k5_pay1 (View.ld a rM5) (View.ld h rM5) (View.ld d rD5) (View.ld b rB5)⟩]

theorem covers5 (p : Vec F S5000x128 .f32) (y : S5000x128.Idx) :
    ∃ pc ∈ ([⟨rM5, p⟩] : List (View.Piece (Elt F) S5000x128 .f32)), y ∈ pc.1.set :=
  View.cover_of_tiled [⟨rM5, p⟩] S5000x128.size (by rfl) y

set_option maxHeartbeats 1000000 in
theorem triple5 (c : Dev nD) (E : Set ℕ) (i : grid5.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (a h : Vec F S5000x128 .f32) (d : Vec F S5000x1 .f32) (b : Vec F S1x128 .f32) (K : PUnit → sProp 𝕄) :
    iprop(owns (c : Thread nD τ) arg1 fullShare a ∗ owns (c : Thread nD τ) arg2 fullShare h ∗ owns (c : Thread nD τ) arg3 fullShare d
        ∗ owns (c : Thread nD τ) arg4 fullShare b ∗ (∃ e, owns (c : Thread nD τ) arg5 fullShare e)
        ∗ (iprop(owns (c : Thread nD τ) arg1 fullShare a ∗ owns (c : Thread nD τ) arg2 fullShare h ∗ owns (c : Thread nD τ) arg3 fullShare d
            ∗ owns (c : Thread nD τ) arg4 fullShare b ∗ owns (c : Thread nD τ) arg5 fullShare (comb5 a h d b)) -∗ K ⟨⟩))
      ⊢ wp frame (wpE (defs₀ (F := F)) Variants.none c none) E (cc5__combine_relu_kernel i arg1 harg1 arg2 harg2 arg3 harg3 arg4 harg4 arg5 harg5) K := by
  simp only [cc5__combine_relu_kernel_eq_skeleton]; unfold cc5__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers5 _)

def dat5 (c : Dev nD) : Dat τ (Elt F) Unit ℕ (Pipeline.UD sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => comb5 (blk5 V c 0 t) (blk5 V c 1 t) (blk5 V c 2 t) (blk5 V c 3 t)
  Φ _ := Pipeline.ΦA spec5 c
  q _ := fullShare
  owed _ := 0

theorem after5_4 (c : Dev nD) (t : Fin cfg5.N) :
    (dat5 V c).after 4 t = comb5 (blk5 V c 0 t) (blk5 V c 1 t) (blk5 V c 2 t) (blk5 V c 3 t) := by dsimp only [dat5]

theorem before5_0 (c : Dev nD) (t : Fin cfg5.N) (d) : (dat5 V c).before 0 t d = blk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = blk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = blk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = blk5 V c 3 t :=
  ((dat5 V c).before_in_eq_fetched 3 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, before5_2, before5_3]
  rw [show (dat5 V c).Φ t.succ = (dat5 V c).Φ t.castSucc from rfl,
    show (dat5 V c).owesAt () t.succ = (dat5 V c).owesAt () t.castSucc from rfl,
    after5_4]
  show _ ⊢ wp _ _ _ (bodyAt5 t) _
  unfold bodyAt5
  iintro ⟨HΦ, Ho, ⟨%d0, H0⟩, ⟨%d1, H1⟩, ⟨%d2, H2⟩, ⟨%d3, H3⟩, ⟨%d4, H4⟩⟩
  iapply (triple5 c Set.univ (grid5.coords t) _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Hand

end
-- ==== Proof.KB.PoolDefs.lean ====
import proofs.«419905_j28260884807710_1_alg».proof.Proof.Gen.Kernel.Skeleton

noncomputable section

namespace Cert.Kernel.Hand

open Cert.Kernel Cert.Kernel.Gen Idealize.ShloMosaic

variable {F : FTy → Type} [FloatOps F]

abbrev pt20 (n : ℕ) : Fin 20 := ⟨n % 20, Nat.mod_lt _ (by decide)⟩

def poolAcc (bB : Fin 20 → Vec F S5000x1 .i32) (bH : Fin 20 → Vec F S5000x128 .f32) :
    ℕ → Vec F S256x128 .f32 × Vec F S256x1 .f32
  | 0 => (k6_pay4 (bB (pt20 0)) (bH (pt20 0)) (k6_pay1 (F := F)), k6_pay5 (bB (pt20 0)) (k6_pay2 (F := F)))
  | n + 1 => (k6_pay4 (bB (pt20 (n + 1))) (bH (pt20 (n + 1))) (poolAcc bB bH n).1,
              k6_pay5 (bB (pt20 (n + 1))) (poolAcc bB bH n).2)

theorem poolAcc_zero (bB : Fin 20 → Vec F S5000x1 .i32) (bH : Fin 20 → Vec F S5000x128 .f32) :
    poolAcc bB bH 0 = (k6_pay4 (bB (pt20 0)) (bH (pt20 0)) (k6_pay1 (F := F)), k6_pay5 (bB (pt20 0)) (k6_pay2 (F := F))) := rfl

theorem poolAcc_succ (bB : Fin 20 → Vec F S5000x1 .i32) (bH : Fin 20 → Vec F S5000x128 .f32) (n : ℕ) :
    poolAcc bB bH (n + 1) = (k6_pay4 (bB (pt20 (n + 1))) (bH (pt20 (n + 1))) (poolAcc bB bH n).1,
              k6_pay5 (bB (pt20 (n + 1))) (poolAcc bB bH n).2) := rfl

end Cert.Kernel.Hand

end
-- ==== Proof.KB.Region6.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import proofs.«419905_j28260884807710_1_alg».proof.Proof.KB.PoolDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev gidBlk6 (c : Dev nD) (t : Fin 20) : Vec F S5000x1 .i32 := blk6 V c 0 ⟨t.val, by rw [show cfg6.N = 20 from N_6]; exact t.isLt⟩
abbrev featBlk6 (c : Dev nD) (t : Fin 20) : Vec F S5000x128 .f32 := blk6 V c 1 ⟨t.val, by rw [show cfg6.N = 20 from N_6]; exact t.isLt⟩

def acc6 (c : Dev nD) (n : ℕ) : Vec F S256x128 .f32 × Vec F S256x1 .f32 := poolAcc (gidBlk6 V c) (featBlk6 V c) n

abbrev scM6_0 : Memref sig .tc .vmem S256x128 .f32 := Memref.whole cc6_scratch0
abbrev scM6_1 : Memref sig .tc .vmem S256x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := Pipeline.UD sig nD τ) (Lvl := ℕ) (Val := Elt F) spec6 c [cc6_scratch0, cc6_scratch1])
        ∗ (∃ r, prngReg c r)) := by
  unfold Pipeline.ΦA; rw [scopedRest6_split]; simp only [scM6_0, scM6_1, owns_whole]; try rfl

/-- After `n` points the two accumulators hold the one-hot sums over the first `n` blocks of nodes. -/
def Phi6 (c : Dev nD) : ℕ → sProp 𝕄
  | 0 => Pipeline.ΦA spec6 c
  | n + 1 => iprop(iprop(iprop(owns (c : Thread nD τ) scM6_0 fullShare (acc6 V c n).1 ∗ owns (c : Thread nD τ) scM6_1 fullShare (acc6 V c n).2)
          ∗ Pipeline.scopedRestBut (Ix := Unit) (Name := ℕ) (U := Pipeline.UD sig nD τ) (Lvl := ℕ) (Val := Elt F) spec6 c [cc6_scratch0, cc6_scratch1])
        ∗ (∃ r, prngReg c r))

theorem Phi6_zero (c : Dev nD) : Phi6 V c 0 = Pipeline.ΦA spec6 c := rfl

theorem Phi6_succ (c : Dev nD) (n : ℕ) :
    Phi6 V c (n + 1) = iprop(iprop(iprop(owns (c : Thread nD τ) scM6_0 fullShare (acc6 V c n).1 ∗ owns (c : Thread nD τ) scM6_1 fullShare (acc6 V c n).2)
          ∗ Pipeline.scopedRestBut (Ix := Unit) (Name := ℕ) (U := Pipeline.UD sig nD τ) (Lvl := ℕ) (Val := Elt F) spec6 c [cc6_scratch0, cc6_scratch1])
        ∗ (∃ r, prngReg c r)) := rfl

def dat6 (c : Dev nD) : Dat τ (Elt F) Unit ℕ (Pipeline.UD sig nD τ) ℕ cfg6 c where
  A w := V c (Pipeline.arrRef spec6 w)
  after w t := match w with
    | ⟨0, _⟩ => blk6 V c 0 t
    | ⟨1, _⟩ => blk6 V c 1 t
    | ⟨2, _⟩ => (acc6 V c t.val).1
    | ⟨3, _⟩ => (acc6 V c t.val).2
  Φ t := Phi6 V c t.val
  q _ := fullShare
  owed _ := 0

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = (acc6 V c t.val).1 := by dsimp only [dat6]
theorem after6_3 (c : Dev nD) (t : Fin cfg6.N) : (dat6 V c).after 3 t = (acc6 V c t.val).2 := by dsimp only [dat6]

theorem hin6 (c : Dev nD) : Pipeline.ΦA spec6 c ⊢ (dat6 V c).Φ 0 := by
  rw [show (dat6 V c).Φ 0 = Phi6 V c 0 from rfl, Phi6_zero]

theorem hout6 (c : Dev nD) : (dat6 V c).Φ (Fin.last cfg6.N) ⊢ Pipeline.ΦA spec6 c := by
  rw [show (dat6 V c).Φ (Fin.last cfg6.N) = Phi6 V c (19 + 1) from rfl, Phi6_succ, PhiA6_eq]
  iintro ⟨⟨⟨HS0, HS1⟩, HR⟩, Hg⟩
  iframe
  isplitl [HS0] <;> (iexists _; iassumption)

abbrev cond6_0 (i : grid6.Coords) : Prop := (Scalar.cmpi .ne (Scalar.extui (Scalar.cmpi .eq (BitVec.ofNat 32 (i 0).val) 0#32)) 0#32) = 1#1

abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

theorem zero2_6 : (![0, 0] : Fin 2 → Nat) = fun _ => 0 := funext fun a => by fin_cases a <;> rfl

set_option maxHeartbeats 1000000 in
theorem tripleMid6 (c : Dev nD) (E : Set ℕ) (i : grid6.Coords)
    (arg1 : Memref sig .tc .vmem S5000x1 .i32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S256x1 .f32) (harg4 : arg4.IsWhole)
    (arg5 : Memref sig .tc .vmem S256x128 .f32) (harg5 : arg5.IsWhole) (arg6 : Memref sig .tc .vmem S256x1 .f32) (harg6 : arg6.IsWhole)
    (hc0 : ¬cond6_0 i) (hc1 : ¬cond6_1 i)
    (x : Vec F S5000x1 .i32) (h : Vec F S5000x128 .f32) (s : Vec F S256x128 .f32) (k : Vec F S256x1 .f32) (K : PUnit → sProp 𝕄) :
    iprop(owns (c : Thread nD τ) arg1 fullShare x ∗ owns (c : Thread nD τ) arg2 fullShare h
        ∗ owns (c : Thread nD τ) arg5 fullShare s ∗ owns (c : Thread nD τ) arg6 fullShare k
        ∗ (iprop(owns (c : Thread nD τ) arg1 fullShare x ∗ owns (c : Thread nD τ) arg2 fullShare h
            ∗ owns (c : Thread nD τ) arg5 fullShare (k6_pay4 x h s) ∗ owns (c : Thread nD τ) arg6 fullShare (k6_pay5 x k)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  all_goals
    iexists _; isplitr
    swap; · iassumption
    ipureintro
    sl_unfold_run_names
    first
      | rw [View.read_writes_eq_canon _ _ _ (fun y => ⟨_, List.mem_cons_self .., View.mem_set_unit_zero zero2_6 inb_S256x128_S256x128_0_0 y⟩),
          View.canon_cons_unit_zero zero2_6]
      | rw [View.read_writes_eq_canon _ _ _ (fun y => ⟨_, List.mem_cons_self .., View.mem_set_unit_zero zero2_6 inb_S256x1_S256x1_0_0 y⟩),
          View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]

set_option maxHeartbeats 1000000 in
theorem tripleFirst6 (c : Dev nD) (E : Set ℕ) (i : grid6.Coords)
    (arg1 : Memref sig .tc .vmem S5000x1 .i32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S256x1 .f32) (harg4 : arg4.IsWhole)
    (arg5 : Memref sig .tc .vmem S256x128 .f32) (harg5 : arg5.IsWhole) (arg6 : Memref sig .tc .vmem S256x1 .f32) (harg6 : arg6.IsWhole)
    (hc0 : cond6_0 i) (hc1 : ¬cond6_1 i)
    (x : Vec F S5000x1 .i32) (h : Vec F S5000x128 .f32) (K : PUnit → sProp 𝕄) :
    iprop(owns (c : Thread nD τ) arg1 fullShare x ∗ owns (c : Thread nD τ) arg2 fullShare h
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare h
            ∗ owns (c : Thread nD τ) arg5 fullShare (k6_pay4 x h (k6_pay1 (F := F))) ∗ owns (c : Thread nD τ) arg6 fullShare (k6_pay5 x (k6_pay2 (F := F)))) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  all_goals
    iexists _; isplitr
    swap; · iassumption
    ipureintro
    sl_unfold_run_names
    first
      | rw [View.read_writes_eq_canon _ _ _ (fun y => ⟨_, List.mem_cons_self .., View.mem_set_unit_zero zero2_6 inb_S256x128_S256x128_0_0 y⟩),
          View.canon_cons_unit_zero zero2_6]
      | rw [View.read_writes_eq_canon _ _ _ (fun y => ⟨_, List.mem_cons_self .., View.mem_set_unit_zero zero2_6 inb_S256x1_S256x1_0_0 y⟩),
          View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]

set_option maxHeartbeats 1000000 in
theorem tripleLast6 (c : Dev nD) (E : Set ℕ) (i : grid6.Coords)
    (arg1 : Memref sig .tc .vmem S5000x1 .i32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S256x1 .f32) (harg4 : arg4.IsWhole)
    (arg5 : Memref sig .tc .vmem S256x128 .f32) (harg5 : arg5.IsWhole) (arg6 : Memref sig .tc .vmem S256x1 .f32) (harg6 : arg6.IsWhole)
    (hc0 : ¬cond6_0 i) (hc1 : cond6_1 i)
    (x : Vec F S5000x1 .i32) (h : Vec F S5000x128 .f32) (s : Vec F S256x128 .f32) (k : Vec F S256x1 .f32) (K : PUnit → sProp 𝕄) :
    iprop(owns (c : Thread nD τ) arg1 fullShare x ∗ owns (c : Thread nD τ) arg2 fullShare h
        ∗ (∃ d, owns (c : Thread nD τ) arg3 fullShare d) ∗ (∃ d, owns (c : Thread nD τ) arg4 fullShare d)
        ∗ owns (c : Thread nD τ) arg5 fullShare s ∗ owns (c : Thread nD τ) arg6 fullShare k
        ∗ (iprop(owns (c : Thread nD τ) arg1 fullShare x ∗ owns (c : Thread nD τ) arg2 fullShare h
            ∗ owns (c : Thread nD τ) arg3 fullShare (k6_pay4 x h s) ∗ owns (c : Thread nD τ) arg4 fullShare (k6_pay5 x k)
            ∗ owns (c : Thread nD τ) arg5 fullShare (k6_pay4 x h s) ∗ owns (c : Thread nD τ) arg6 fullShare (k6_pay5 x k)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]; swap; isplitl [H3]; swap; isplitl [H4]
  pick_goal 4
  iterate 2
    iexists _; isplitr
    swap; · iassumption
    ipureintro
    sl_unfold_run_names
    rw [View.read_writes_eq_canon _ _ _ (fun y => ⟨_, List.mem_cons_self .., View.mem_set_unit_zero zero2_6 inb_S256x128_S256x128_0_0 y⟩),
      View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]
  all_goals
    iexists _; isplitr
    swap; · iassumption
    ipureintro
    sl_unfold_run_names
    rw [View.read_writes_eq_canon _ _ _ (fun y => ⟨_, List.mem_cons_self .., View.mem_set_unit_zero zero2_6 inb_S256x1_S256x1_0_0 y⟩),
      View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]

theorem before6_0 (c : Dev nD) (t : Fin cfg6.N) (d) : (dat6 V c).before 0 t d = blk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = blk6 V c 1 t :=
  ((dat6 V c).before_in_eq_fetched 1 rfl (fun _ => rfl) (fun _ _ _ => rfl) (fun _ => rfl) t d).trans rfl

theorem liveAt6_0 : ∀ t : Fin cfg6.N, cfg6.idle 0 (grid6.coords t) = false := fun _ => rfl
theorem liveAt6_1 : ∀ t : Fin cfg6.N, cfg6.idle 1 (grid6.coords t) = false := fun _ => rfl

theorem idleAt6_2 : ∀ t : Fin cfg6.N, ¬cond6_1 (grid6.coords t) → cfg6.idle 2 (grid6.coords t) = true := by decide +kernel
theorem idleAt6_3 : ∀ t : Fin cfg6.N, ¬cond6_1 (grid6.coords t) → cfg6.idle 3 (grid6.coords t) = true := by decide +kernel
theorem noFlush6_2 : ∀ t : Fin cfg6.N, ¬cond6_1 (grid6.coords t) → (cfg6.win 2).flush t = false := by decide +kernel
theorem noFlush6_3 : ∀ t : Fin cfg6.N, ¬cond6_1 (grid6.coords t) → (cfg6.win 3).flush t = false := by decide +kernel
theorem liveAt6_2 : ∀ t : Fin cfg6.N, cond6_1 (grid6.coords t) → cfg6.idle 2 (grid6.coords t) = false := by decide +kernel
theorem liveAt6_3 : ∀ t : Fin cfg6.N, cond6_1 (grid6.coords t) → cfg6.idle 3 (grid6.coords t) = false := by decide +kernel

theorem gidBlk6_pt (c : Dev nD) (t : Fin cfg6.N) : gidBlk6 V c (pt20 t.val) = blk6 V c 0 t := by
  have ht : t.val < 20 := lt_of_lt_of_eq t.isLt (show cfg6.N = 20 from N_6)
  have e : (⟨(pt20 t.val).val, lt_of_lt_of_eq (pt20 t.val).isLt (show (20 : ℕ) = cfg6.N from N_6.symm)⟩ : Fin cfg6.N) = t := Fin.ext (Nat.mod_eq_of_lt ht)
  exact congrArg (β := Vec F S5000x1 .i32) (fun u : Fin cfg6.N => blk6 V c 0 u) e

theorem featBlk6_pt (c : Dev nD) (t : Fin cfg6.N) : featBlk6 V c (pt20 t.val) = blk6 V c 1 t := by
  have ht : t.val < 20 := lt_of_lt_of_eq t.isLt (show cfg6.N = 20 from N_6)
  have e : (⟨(pt20 t.val).val, lt_of_lt_of_eq (pt20 t.val).isLt (show (20 : ℕ) = cfg6.N from N_6.symm)⟩ : Fin cfg6.N) = t := Fin.ext (Nat.mod_eq_of_lt ht)
  exact congrArg (β := Vec F S5000x128 .f32) (fun u : Fin cfg6.N => blk6 V c 1 u) e

theorem acc6_first (c : Dev nD) (t : Fin cfg6.N) (h0 : t.val = 0) :
    acc6 V c t.val = (k6_pay4 (blk6 V c 0 t) (blk6 V c 1 t) (k6_pay1 (F := F)), k6_pay5 (blk6 V c 0 t) (k6_pay2 (F := F))) := by
  rw [← gidBlk6_pt V c t, ← featBlk6_pt V c t, h0]; rfl

theorem acc6_step (c : Dev nD) (t : Fin cfg6.N) (h0 : t.val ≠ 0) :
    acc6 V c t.val = (k6_pay4 (blk6 V c 0 t) (blk6 V c 1 t) (acc6 V c (t.val - 1)).1, k6_pay5 (blk6 V c 0 t) (acc6 V c (t.val - 1)).2) := by
  rw [← gidBlk6_pt V c t, ← featBlk6_pt V c t]
  obtain ⟨n, hn⟩ : ∃ n, t.val = n + 1 := ⟨t.val - 1, by omega⟩
  rw [hn]; rfl

theorem Phi6_pos (c : Dev nD) (n : ℕ) (hn : n ≠ 0) :
    Phi6 V c n = iprop(iprop(iprop(owns (c : Thread nD τ) scM6_0 fullShare (acc6 V c (n - 1)).1 ∗ owns (c : Thread nD τ) scM6_1 fullShare (acc6 V c (n - 1)).2)
          ∗ Pipeline.scopedRestBut (Ix := Unit) (Name := ℕ) (U := Pipeline.UD sig nD τ) (Lvl := ℕ) (Val := Elt F) spec6 c [cc6_scratch0, cc6_scratch1])
        ∗ (∃ r, prngReg c r)) := by
  cases n with
  | zero => exact absurd rfl hn
  | succ n => rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Phi6 V c (t.val + 1) from rfl, Phi6_succ,
    show (dat6 V c).Φ t.castSucc = Phi6 V c t.val from rfl]
  rw [show (dat6 V c).leavesExact 0 t = owns (c : Thread nD τ) (st6_0 t) fullShare ((dat6 V c).after 0 t) from by
      unfold Dat.leavesExact; rw [liveAt6_0 t], after6_0]
  rw [show (dat6 V c).leavesExact 1 t = owns (c : Thread nD τ) (st6_1 t) fullShare ((dat6 V c).after 1 t) from by
      unfold Dat.leavesExact; rw [liveAt6_1 t], after6_1]
  have hN : t.val < 20 := lt_of_lt_of_eq t.isLt (show cfg6.N = 20 from N_6)
  by_cases h0 : t.val = 0
  ·
    have hc0 : cond6_0 (grid6.coords t) := (hcond6_0 t).mpr h0
    have hc1 : ¬cond6_1 (grid6.coords t) := fun hh => by have := (hcond6_1 t).mp hh; omega
    rw [Dat.leavesExact_idle (dat6 V c) 2 t (idleAt6_2 t hc1) (noFlush6_2 t hc1),
      Dat.leavesExact_idle (dat6 V c) 3 t (idleAt6_3 t hc1) (noFlush6_3 t hc1)]
    rw [acc6_first V c t h0, h0, Phi6_zero, PhiA6_eq]
    iintro ⟨⟨⟨⟨HS0, HS1⟩, HR⟩, Hg⟩, Ho, ⟨%d0, H0⟩, ⟨%d1, H1⟩, ⟨%d2, H2⟩, ⟨%d3, H3⟩⟩
    iapply (tripleFirst6 c Set.univ (grid6.coords t) _ _ _ _ _ _ _ _ _ _ _ _ hc0 hc1 (blk6 V c 0 t) (blk6 V c 1 t) _)
    iframe
    iintro ⟨H0, H1, HS0, HS1⟩
    iframe
    isplitl [H2]; · iexists _; iexact H2
    iexists _; iexact H3
  · have hc0 : ¬cond6_0 (grid6.coords t) := fun hh => h0 ((hcond6_0 t).mp hh)
    rw [acc6_step V c t h0, Phi6_pos V c t.val h0]
    by_cases h1 : t.val = 19
    ·
      have hc1 : cond6_1 (grid6.coords t) := (hcond6_1 t).mpr h1
      rw [show (dat6 V c).leavesExact 2 t = owns (c : Thread nD τ) (st6_2 t) fullShare ((dat6 V c).after 2 t) from by
          unfold Dat.leavesExact; rw [liveAt6_2 t hc1], after6_2]
      rw [show (dat6 V c).leavesExact 3 t = owns (c : Thread nD τ) (st6_3 t) fullShare ((dat6 V c).after 3 t) from by
          unfold Dat.leavesExact; rw [liveAt6_3 t hc1], after6_3]
      rw [acc6_step V c t h0]
      iintro ⟨⟨⟨⟨HS0, HS1⟩, HR⟩, Hg⟩, Ho, ⟨%d0, H0⟩, ⟨%d1, H1⟩, ⟨%d2, H2⟩, ⟨%d3, H3⟩⟩
      iapply (tripleLast6 c Set.univ (grid6.coords t) _ _ _ _ _ _ _ _ _ _ _ _ hc0 hc1 (blk6 V c 0 t) (blk6 V c 1 t) (acc6 V c (t.val - 1)).1 (acc6 V c (t.val - 1)).2 _)
      iframe
      isplitl [H2]; · iexists _; iexact H2
      isplitl [H3]; · iexists _; iexact H3
      iintro ⟨H0, H1, H2, H3, HS0, HS1⟩
      iframe
    ·
      have hc1 : ¬cond6_1 (grid6.coords t) := fun hh => h1 ((hcond6_1 t).mp hh)
      rw [Dat.leavesExact_idle (dat6 V c) 2 t (idleAt6_2 t hc1) (noFlush6_2 t hc1),
        Dat.leavesExact_idle (dat6 V c) 3 t (idleAt6_3 t hc1) (noFlush6_3 t hc1)]
      iintro ⟨⟨⟨⟨HS0, HS1⟩, HR⟩, Hg⟩, Ho, ⟨%d0, H0⟩, ⟨%d1, H1⟩, ⟨%d2, H2⟩, ⟨%d3, H3⟩⟩
      iapply (tripleMid6 c Set.univ (grid6.coords t) _ _ _ _ _ _ _ _ _ _ _ _ hc0 hc1 (blk6 V c 0 t) (blk6 V c 1 t) (acc6 V c (t.val - 1)).1 (acc6 V c (t.val - 1)).2 _)
      iframe
      iintro ⟨H0, H1, HS0, HS1⟩
      iframe
      isplitl [H2]; · iexists _; iexact H2
      iexists _; iexact H3

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Fold.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419905_j28260884807710_1_alg».proof.Proof.Gen.Kernel.Regions
import proofs.«419905_j28260884807710_1_alg».proof.Proof.KB.Region0
import proofs.«419905_j28260884807710_1_alg».proof.Proof.KB.Region1
import proofs.«419905_j28260884807710_1_alg».proof.Proof.KB.Region2
import proofs.«419905_j28260884807710_1_alg».proof.Proof.KB.Region3
import proofs.«419905_j28260884807710_1_alg».proof.Proof.KB.Region4
import proofs.«419905_j28260884807710_1_alg».proof.Proof.KB.Region5
import proofs.«419905_j28260884807710_1_alg».proof.Proof.KB.Region6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev atTc (W : Dev nD → Valuation τ sig (Elt F)) (c : Dev nD) (b : Ref sig .tc) : Buf (Elt F) ((c : Thread nD τ).loc b) := W c b

/-- A buffer that is no output array of a region holds after the region what it held before. -/
theorem region_keep {Λ : Labels} {cfg : Cfg sig Λ} {c : Dev nD} (dat : Dat τ (Elt F) Unit ℕ (Pipeline.UD sig nD τ) ℕ cfg c)
    (hinj : Function.Injective (Pipeline.arrRef cfg.spec)) (X : Valuation τ sig (Elt F))
    (hA : ∀ w, dat.A w = X (Proc.devRef .tc (Pipeline.arrRef cfg.spec w))) (b : Ref sig .tc)
    (h : ∀ w, (cfg.win w).isOut = true → Pipeline.arrRef cfg.spec w ≠ b) :
    Pipeline.withArrays cfg.spec c X (fun w => dat.arrAt w cfg.N) (Proc.devRef .tc b) = X (Proc.devRef .tc b) := by
  by_cases hb : ∃ w, Pipeline.arrRef cfg.spec w = b
  · obtain ⟨w, rfl⟩ := hb
    cases hw : (cfg.win w).isOut with
    | false => exact (Pipeline.withArrays_arr cfg.spec hinj c X _ w).trans ((dat.arrAt_in w hw _).trans (hA w))
    | true => exact absurd rfl (h w hw)
  · exact Pipeline.withArrays_of_ne cfg.spec c X _ b fun w e => hb ⟨w, e⟩

theorem region_rest {gr W : Nat} (win : Fin W → Pipeline.WinSpec sig gr) (c : Dev nD) (X : Valuation τ sig (Elt F))
    (A : (w : Fin W) → Buf (Elt F) ((win w).arr.view.loc (c : Thread nD τ))) (b : Ref sig .tc)
    (hb : b ∉ Finset.univ.image (Pipeline.arrRef win)) :
    Pipeline.withArrays win c X A (Proc.devRef .tc b) = X (Proc.devRef .tc b) :=
  Pipeline.withArrays_of_ne win c X A b fun w e => hb (Finset.mem_image.mpr ⟨w, Finset.mem_univ _, e⟩)

abbrev U0 (c : Dev nD) : Valuation τ sig (Elt F) := fun b => m (c, b)
abbrev U1 (c : Dev nD) : Valuation τ sig (Elt F) := StableHlo.after hostOps0 (U0 m c)
theorem U1_keep (c : Dev nD) (r : Ref sig .tc) (h : r ∉ hostOps0_W) : U1 m c r = U0 m c r :=
  StableHlo.after_of_writes_sub hostOps0 _ hostOps0_writes h
def U2 (c : Dev nD) : Valuation τ sig (Elt F) :=
  Pipeline.withArrays spec0 c (U1 m c) fun w => (dat0 (atTc (U1 m)) c).arrAt w cfg0.N
theorem U2_arr (c : Dev nD) (w : Fin cfg0.W) :
    U2 m c (Proc.devRef .tc (Pipeline.arrRef spec0 w)) = (dat0 (atTc (U1 m)) c).arrAt w cfg0.N :=
  Pipeline.withArrays_arr spec0 launch0.win.arr_inj c _ _ w
theorem U2_keep (c : Dev nD) (b : Ref sig .tc) (h : ∀ w : Fin cfg0.W, (cfg0.win w).isOut = true → Pipeline.arrRef spec0 w ≠ b) :
    U2 m c (Proc.devRef .tc b) = U1 m c (Proc.devRef .tc b) :=
  region_keep (dat0 (atTc (U1 m)) c) launch0.win.arr_inj (U1 m c) (fun _ => rfl) b h
abbrev U3 (c : Dev nD) : Valuation τ sig (Elt F) := StableHlo.after hostOps1 (U2 m c)
theorem U3_keep (c : Dev nD) (r : Ref sig .tc) (h : r ∉ hostOps1_W) : U3 m c r = U2 m c r :=
  StableHlo.after_of_writes_sub hostOps1 _ hostOps1_writes h
def U4 (c : Dev nD) : Valuation τ sig (Elt F) :=
  Pipeline.withArrays spec1 c (U3 m c) fun w => (dat1 (atTc (U3 m)) c).arrAt w cfg1.N
theorem U4_arr (c : Dev nD) (w : Fin cfg1.W) :
    U4 m c (Proc.devRef .tc (Pipeline.arrRef spec1 w)) = (dat1 (atTc (U3 m)) c).arrAt w cfg1.N :=
  Pipeline.withArrays_arr spec1 launch1.win.arr_inj c _ _ w
theorem U4_keep (c : Dev nD) (b : Ref sig .tc) (h : ∀ w : Fin cfg1.W, (cfg1.win w).isOut = true → Pipeline.arrRef spec1 w ≠ b) :
    U4 m c (Proc.devRef .tc b) = U3 m c (Proc.devRef .tc b) :=
  region_keep (dat1 (atTc (U3 m)) c) launch1.win.arr_inj (U3 m c) (fun _ => rfl) b h
def U5 (c : Dev nD) : Valuation τ sig (Elt F) :=
  Pipeline.withArrays spec2 c (U4 m c) fun w => (dat2 (atTc (U4 m)) c).arrAt w cfg2.N
theorem U5_arr (c : Dev nD) (w : Fin cfg2.W) :
    U5 m c (Proc.devRef .tc (Pipeline.arrRef spec2 w)) = (dat2 (atTc (U4 m)) c).arrAt w cfg2.N :=
  Pipeline.withArrays_arr spec2 launch2.win.arr_inj c _ _ w
theorem U5_keep (c : Dev nD) (b : Ref sig .tc) (h : ∀ w : Fin cfg2.W, (cfg2.win w).isOut = true → Pipeline.arrRef spec2 w ≠ b) :
    U5 m c (Proc.devRef .tc b) = U4 m c (Proc.devRef .tc b) :=
  region_keep (dat2 (atTc (U4 m)) c) launch2.win.arr_inj (U4 m c) (fun _ => rfl) b h
abbrev U6 (c : Dev nD) : Valuation τ sig (Elt F) := StableHlo.after hostOps3 (U5 m c)
theorem U6_keep (c : Dev nD) (r : Ref sig .tc) (h : r ∉ hostOps3_W) : U6 m c r = U5 m c r :=
  StableHlo.after_of_writes_sub hostOps3 _ hostOps3_writes h
def U7 (c : Dev nD) : Valuation τ sig (Elt F) :=
  Pipeline.withArrays spec3 c (U6 m c) fun w => (dat3 (atTc (U6 m)) c).arrAt w cfg3.N
theorem U7_arr (c : Dev nD) (w : Fin cfg3.W) :
    U7 m c (Proc.devRef .tc (Pipeline.arrRef spec3 w)) = (dat3 (atTc (U6 m)) c).arrAt w cfg3.N :=
  Pipeline.withArrays_arr spec3 launch3.win.arr_inj c _ _ w
theorem U7_keep (c : Dev nD) (b : Ref sig .tc) (h : ∀ w : Fin cfg3.W, (cfg3.win w).isOut = true → Pipeline.arrRef spec3 w ≠ b) :
    U7 m c (Proc.devRef .tc b) = U6 m c (Proc.devRef .tc b) :=
  region_keep (dat3 (atTc (U6 m)) c) launch3.win.arr_inj (U6 m c) (fun _ => rfl) b h
def U8 (c : Dev nD) : Valuation τ sig (Elt F) :=
  Pipeline.withArrays spec4 c (U7 m c) fun w => (dat4 (atTc (U7 m)) c).arrAt w cfg4.N
theorem U8_arr (c : Dev nD) (w : Fin cfg4.W) :
    U8 m c (Proc.devRef .tc (Pipeline.arrRef spec4 w)) = (dat4 (atTc (U7 m)) c).arrAt w cfg4.N :=
  Pipeline.withArrays_arr spec4 launch4.win.arr_inj c _ _ w
theorem U8_keep (c : Dev nD) (b : Ref sig .tc) (h : ∀ w : Fin cfg4.W, (cfg4.win w).isOut = true → Pipeline.arrRef spec4 w ≠ b) :
    U8 m c (Proc.devRef .tc b) = U7 m c (Proc.devRef .tc b) :=
  region_keep (dat4 (atTc (U7 m)) c) launch4.win.arr_inj (U7 m c) (fun _ => rfl) b h
abbrev U9 (c : Dev nD) : Valuation τ sig (Elt F) := StableHlo.after hostOps5 (U8 m c)
theorem U9_keep (c : Dev nD) (r : Ref sig .tc) (h : r ∉ hostOps5_W) : U9 m c r = U8 m c r :=
  StableHlo.after_of_writes_sub hostOps5 _ hostOps5_writes h
def U10 (c : Dev nD) : Valuation τ sig (Elt F) :=
  Pipeline.withArrays spec5 c (U9 m c) fun w => (dat5 (atTc (U9 m)) c).arrAt w cfg5.N
theorem U10_arr (c : Dev nD) (w : Fin cfg5.W) :
    U10 m c (Proc.devRef .tc (Pipeline.arrRef spec5 w)) = (dat5 (atTc (U9 m)) c).arrAt w cfg5.N :=
  Pipeline.withArrays_arr spec5 launch5.win.arr_inj c _ _ w
theorem U10_keep (c : Dev nD) (b : Ref sig .tc) (h : ∀ w : Fin cfg5.W, (cfg5.win w).isOut = true → Pipeline.arrRef spec5 w ≠ b) :
    U10 m c (Proc.devRef .tc b) = U9 m c (Proc.devRef .tc b) :=
  region_keep (dat5 (atTc (U9 m)) c) launch5.win.arr_inj (U9 m c) (fun _ => rfl) b h
abbrev U11 (c : Dev nD) : Valuation τ sig (Elt F) := StableHlo.after hostOps6 (U10 m c)
theorem U11_keep (c : Dev nD) (r : Ref sig .tc) (h : r ∉ hostOps6_W) : U11 m c r = U10 m c r :=
  StableHlo.after_of_writes_sub hostOps6 _ hostOps6_writes h
def U12 (c : Dev nD) : Valuation τ sig (Elt F) :=
  Pipeline.withArrays spec6 c (U11 m c) fun w => (dat6 (atTc (U11 m)) c).arrAt w cfg6.N
theorem U12_arr (c : Dev nD) (w : Fin cfg6.W) :
    U12 m c (Proc.devRef .tc (Pipeline.arrRef spec6 w)) = (dat6 (atTc (U11 m)) c).arrAt w cfg6.N :=
  Pipeline.withArrays_arr spec6 launch6.win.arr_inj c _ _ w
theorem U12_keep (c : Dev nD) (b : Ref sig .tc) (h : ∀ w : Fin cfg6.W, (cfg6.win w).isOut = true → Pipeline.arrRef spec6 w ≠ b) :
    U12 m c (Proc.devRef .tc b) = U11 m c (Proc.devRef .tc b) :=
  region_keep (dat6 (atTc (U11 m)) c) launch6.win.arr_inj (U11 m c) (fun _ => rfl) b h
abbrev U13 (c : Dev nD) : Valuation τ sig (Elt F) := StableHlo.after hostOps7 (U12 m c)
theorem U13_keep (c : Dev nD) (r : Ref sig .tc) (h : r ∉ hostOps7_W) : U13 m c r = U12 m c r :=
  StableHlo.after_of_writes_sub hostOps7 _ hostOps7_writes h

/-- No item of @main writes `b`: no host stretch lists it among its results, and it is no region's output array. -/
abbrev Untouched (b : Ref sig .tc) : Prop :=
  b ∉ hostOps0_W ∧ (∀ w : Fin cfg0.W, (cfg0.win w).isOut = true → Pipeline.arrRef spec0 w ≠ b) ∧ b ∉ hostOps1_W ∧ (∀ w : Fin cfg1.W, (cfg1.win w).isOut = true → Pipeline.arrRef spec1 w ≠ b) ∧ (∀ w : Fin cfg2.W, (cfg2.win w).isOut = true → Pipeline.arrRef spec2 w ≠ b) ∧ b ∉ hostOps3_W ∧ (∀ w : Fin cfg3.W, (cfg3.win w).isOut = true → Pipeline.arrRef spec3 w ≠ b) ∧ (∀ w : Fin cfg4.W, (cfg4.win w).isOut = true → Pipeline.arrRef spec4 w ≠ b) ∧ b ∉ hostOps5_W ∧ (∀ w : Fin cfg5.W, (cfg5.win w).isOut = true → Pipeline.arrRef spec5 w ≠ b) ∧ b ∉ hostOps6_W ∧ (∀ w : Fin cfg6.W, (cfg6.win w).isOut = true → Pipeline.arrRef spec6 w ≠ b) ∧ b ∉ hostOps7_W

/-- A buffer no item writes holds at the return what it held at launch. -/
theorem U13_of_untouched (c : Dev nD) (b : Ref sig .tc) (h : Untouched b) : U13 m c b = m ((c : Thread nD τ).loc b) := by
  obtain ⟨h1, h2, h3, h4, h5, h6, h7, h8, h9, h10, h11, h12, h13⟩ := h
  exact (U13_keep m c b h13).trans <| (U12_keep m c b h12).trans <| (U11_keep m c b h11).trans <| (U10_keep m c b h10).trans <| (U9_keep m c b h9).trans <| (U8_keep m c b h8).trans <| (U7_keep m c b h7).trans <| (U6_keep m c b h6).trans <| (U5_keep m c b h5).trans <| (U4_keep m c b h4).trans <| (U3_keep m c b h3).trans <| (U2_keep m c b h2).trans <| (U1_keep m c b h1)

def pdats : (p : Fin 7) → (c : Dev nD) → Dat τ (Elt F) Unit ℕ (Pipeline.UD sig nD τ) ℕ (Pipeline.pin (pcfgs (F := F)) adm p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U7 m)) c
  | ⟨5, _⟩ => fun c => dat5 (atTc (U9 m)) c
  | ⟨6, _⟩ => fun c => dat6 (atTc (U11 m)) c

end Cert.Kernel.Hand

end
-- ==== Proof.LibClassARegion.lean ====
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

def rides (c : Dev nD) : sProp 𝕄₁ :=
  iprop((∃ r, prngReg c r) ∗ ∃ W, owes (c.tc : Thread nD τ) (0 : CellTallies nD τ sig Unit) W)

def between (c : Dev nD) (W : Valuation τ sig Val) : sProp 𝕄₁ :=
  iprop(StableHlo.held (c.tc : Thread nD τ) (ucRefs τ sig) W ∗ rides (U' := U') c)

set_option backward.isDefEq.respectTransparency.types false in
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.KB.Run.lean ====
import proofs.«419905_j28260884807710_1_alg».proof.Proof.Gen.Kernel.Launch
import proofs.«419905_j28260884807710_1_alg».proof.Proof.Gen.Kernel.Skeleton
import proofs.«419905_j28260884807710_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419905_j28260884807710_1_alg».proof.Proof.KB.Fold
import proofs.«419905_j28260884807710_1_alg».proof.Proof.LibClassARegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev ride (c : Dev nD) : sProp 𝕄 := Pipeline.ClassA.rides (U' := Pipeline.UD sig nD τ) c

theorem noTables (p : Fin 7) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (atTc (U1 m)) c) (fun _ _ => rfl) (fun _ _ => rfl) (fun _ _ => rfl)
    (fun _ => .rfl) (fun _ => .rfl) (noTables 0)
    (U1 m) (U2 m) (fun _ _ => rfl) (fun c w => (U2_arr m c w).symm)
    (fun c => region_rest spec0 c _ _)

def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (atTc (U3 m)) c) (fun _ _ => rfl) (fun _ _ => rfl) (fun _ _ => rfl)
    (fun _ => .rfl) (fun _ => .rfl) (noTables 1)
    (U3 m) (U4 m) (fun _ _ => rfl) (fun c w => (U4_arr m c w).symm)
    (fun c => region_rest spec1 c _ _)

def reg2 : Pipeline.RegionSeg (pcfgs (F := F)) adm (pdats m) () defs₀ 𝒱₀ L lv 2 :=
  Pipeline.ClassA.region (pcfgs (F := F)) adm (pdats m) defs₀ 𝒱₀ L lv 2 launch2.toP
    (fun c => body_obligation2 (atTc (U4 m)) c) (fun _ _ => rfl) (fun _ _ => rfl) (fun _ _ => rfl)
    (fun _ => .rfl) (fun _ => .rfl) (noTables 2)
    (U4 m) (U5 m) (fun _ _ => rfl) (fun c w => (U5_arr m c w).symm)
    (fun c => region_rest spec2 c _ _)

def reg3 : Pipeline.RegionSeg (pcfgs (F := F)) adm (pdats m) () defs₀ 𝒱₀ L lv 3 :=
  Pipeline.ClassA.region (pcfgs (F := F)) adm (pdats m) defs₀ 𝒱₀ L lv 3 launch3.toP
    (fun c => body_obligation3 (atTc (U6 m)) c) (fun _ _ => rfl) (fun _ _ => rfl) (fun _ _ => rfl)
    (fun _ => .rfl) (fun _ => .rfl) (noTables 3)
    (U6 m) (U7 m) (fun _ _ => rfl) (fun c w => (U7_arr m c w).symm)
    (fun c => region_rest spec3 c _ _)

def reg4 : Pipeline.RegionSeg (pcfgs (F := F)) adm (pdats m) () defs₀ 𝒱₀ L lv 4 :=
  Pipeline.ClassA.region (pcfgs (F := F)) adm (pdats m) defs₀ 𝒱₀ L lv 4 launch4.toP
    (fun c => body_obligation4 (atTc (U7 m)) c) (fun _ _ => rfl) (fun _ _ => rfl) (fun _ _ => rfl)
    (fun _ => .rfl) (fun _ => .rfl) (noTables 4)
    (U7 m) (U8 m) (fun _ _ => rfl) (fun c w => (U8_arr m c w).symm)
    (fun c => region_rest spec4 c _ _)

def reg5 : Pipeline.RegionSeg (pcfgs (F := F)) adm (pdats m) () defs₀ 𝒱₀ L lv 5 :=
  Pipeline.ClassA.region (pcfgs (F := F)) adm (pdats m) defs₀ 𝒱₀ L lv 5 launch5.toP
    (fun c => body_obligation5 (atTc (U9 m)) c) (fun _ _ => rfl) (fun _ _ => rfl) (fun _ _ => rfl)
    (fun _ => .rfl) (fun _ => .rfl) (noTables 5)
    (U9 m) (U10 m) (fun _ _ => rfl) (fun c w => (U10_arr m c w).symm)
    (fun c => region_rest spec5 c _ _)

def reg6 : Pipeline.RegionSeg (pcfgs (F := F)) adm (pdats m) () defs₀ 𝒱₀ L lv 6 :=
  Pipeline.ClassA.region (pcfgs (F := F)) adm (pdats m) defs₀ 𝒱₀ L lv 6 launch6.toP
    (fun c => body_obligation6 (atTc (U11 m)) c) (fun _ _ => rfl) (fun _ _ => rfl) (fun _ _ => rfl)
    (fun c => hin6 (atTc (U11 m)) c) (fun c => hout6 (atTc (U11 m)) c) (noTables 6)
    (U11 m) (U12 m) (fun _ _ => rfl) (fun c w => (U12_arr m c w).symm)
    (fun c => region_rest spec6 c _ _)

/-- A stretch of host operations as a segment, run from the valuation `X`. -/
abbrev hseg (ops : List (HloOp τ sig (Elt F))) (hs : ops.Forall fun op => op.bufs ⊆ StableHlo.tcRefs τ sig)
    (hf : ops.Forall fun op => op.fresh = ∅) (X : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hs) op h))
    (fun op h => (List.forall_iff_forall_mem.mp hf) op h) X ride

abbrev segs : List (Pipeline.Seg (pcfgs (F := F)) adm (pdats m) () defs₀ 𝒱₀ L lv) :=
  [.host (hseg hostOps0 hostOps0_sub hostOps0_fresh (U0 m)), .region (reg0 m), .host (hseg hostOps1 hostOps1_sub hostOps1_fresh (U2 m)), .region (reg1 m), .region (reg2 m), .host (hseg hostOps3 hostOps3_sub hostOps3_fresh (U5 m)), .region (reg3 m),
   .region (reg4 m), .host (hseg hostOps5 hostOps5_sub hostOps5_fresh (U8 m)), .region (reg5 m), .host (hseg hostOps6 hostOps6_sub hostOps6_fresh (U10 m)), .region (reg6 m), .host (hseg hostOps7 hostOps7_sub hostOps7_fresh (U12 m))]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (U13 m c) ∗ ∃ r, prngReg c r)

set_option backward.isDefEq.respectTransparency.types false in
/-- Every weakly fair execution terminates without a fault, and every final memory holds every unscoped buffer at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U13 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ ride c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (U13 m c) ∗ Pipeline.ClassA.rides (U' := Pipeline.UD sig nD τ) c)
          ⊢ iprop(Tlast m c ∗ ∃ W, owes (c : Thread nD τ) (0 : CellTallies nD τ sig Unit) W)
        unfold Pipeline.ClassA.rides
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      unfold ride Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      iintro ⟨⟨Hh, -⟩, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

/-- A buffer no item writes is read off the final memory with its launch contents. -/
theorem arg_kept (μ : (ℓ : Loc nD τ sig) → Buf (Elt F) ℓ) (c : Dev nD)
    (h : ∀ b ∈ Pipeline.ucRefs τ sig, μ (((c : Thread nD τ)).1, b) = U13 m c b) (b : Ref sig .tc)
    (hb : ¬ (Proc.devRef .tc b : DevRef τ sig).isScoped ∧ Untouched b) :
    μ ((c.tc : Thread nD τ).loc b) = m ((c.tc : Thread nD τ).loc b) :=
  (h _ (mem_uc b hb.1)).trans (U13_of_untouched m c b hb.2)

end Cert.Kernel.Hand

end
-- ==== Proof.KI.Region0.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x22 := Rect.unit (s := S5000x22) ![0, 0] S5000x22.size inb_S5000x22_S5000x22_0_0
abbrev rW0 : Rect S22x64 := Rect.unit (s := S22x64) ![0, 0] S22x64.size inb_S22x64_S22x64_0_0
abbrev rO0 : Rect S5000x64 := Rect.unit (s := S5000x64) ![0, 0] S5000x64.size inb_S5000x64_S5000x64_0_0

/-- A block of rows times the whole weight matrix. -/
def prod0 (x : Vec F S5000x22 .f32) (wt : Vec F S22x64 .f32) : Vec F S5000x64 .f32 :=
  View.canon [⟨rO0, k0_pay1 (View.ld x rX0) (View.ld wt rW0)⟩]

theorem covers0 (p : Vec F S5000x64 .f32) (y : S5000x64.Idx) :
    ∃ pc ∈ ([⟨rO0, p⟩] : List (View.Piece (Elt F) S5000x64 .f32)), y ∈ pc.1.set :=
  View.cover_of_tiled [⟨rO0, p⟩] S5000x64.size (by rfl) y

set_option maxHeartbeats 1000000 in

/-- The body leaves its inputs as found and their product in the result. -/
theorem triple0 (c : Dev nD) (E : Set ℕ) (i : grid0.Coords) (arg1 : Memref sig .tc .vmem S5000x22 .f32) (harg1 : arg1.IsWhole)
    (arg2 : Memref sig .tc .vmem S22x64 .f32) (harg2 : arg2.IsWhole) (arg3 : Memref sig .tc .vmem S5000x64 .f32) (harg3 : arg3.IsWhole)
    (x : Vec F S5000x22 .f32) (wt : Vec F S22x64 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt ∗ owns (c : Thread nD τ) arg3 fullShare (prod0 x wt)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-- Row block `t` of the result is row block `t` of the input times the weight matrix. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem after0_2 (c : Dev nD) (t : Fin cfg0.N) : (dat0 V c).after 2 t = prod0 (blk0 V c 0 t) (blk0 V c 1 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl,
    after0_2]
  show _ ⊢ wp _ _ _ (bodyAt0 t) _
  unfold bodyAt0
  iintro ⟨HΦ, Ho, ⟨%d0, H0⟩, ⟨%d1, H1⟩, ⟨%d2, H2⟩⟩
  iapply (triple0 c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KI.Region1.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rM1 : Rect S5000x64 := Rect.unit (s := S5000x64) ![0, 0] S5000x64.size inb_S5000x64_S5000x64_0_0
abbrev rC1 : Rect S5000x1 := Rect.unit (s := S5000x1) ![0, 0] S5000x1.size inb_S5000x1_S5000x1_0_0
abbrev rR1 : Rect S1x64 := Rect.unit (s := S1x64) ![0, 0] S1x64.size inb_S1x64_S1x64_0_0

/-- On a block of rows: aggregate plus scaled self term plus bias, normalised with the running statistics, clamped at zero. -/
def comb1 (a h : Vec F S5000x64 .f32) (d : Vec F S5000x1 .f32) (b g be mm vv : Vec F S1x64 .f32) : Vec F S5000x64 .f32 :=
  View.canon [⟨rM1, k1_pay1 (View.ld a rM1) (View.ld h rM1) (View.ld d rC1) (View.ld b rR1) (View.ld mm rR1) (View.ld vv rR1)
    (View.ld g rR1) (View.ld be rR1)⟩]

theorem covers1 (p : Vec F S5000x64 .f32) (y : S5000x64.Idx) :
    ∃ pc ∈ ([⟨rM1, p⟩] : List (View.Piece (Elt F) S5000x64 .f32)), y ∈ pc.1.set :=
  View.cover_of_tiled [⟨rM1, p⟩] S5000x64.size (by rfl) y

set_option maxHeartbeats 4000000 in

/-- The body leaves its inputs as found and the combined block in the result. -/
theorem triple1 (c : Dev nD) (E : Set ℕ) (i : grid1.Coords)
    (mA : Memref sig .tc .vmem S5000x64 .f32) (hmA : mA.IsWhole) (mH : Memref sig .tc .vmem S5000x64 .f32) (hmH : mH.IsWhole)
    (mD : Memref sig .tc .vmem S5000x1 .f32) (hmD : mD.IsWhole) (mB : Memref sig .tc .vmem S1x64 .f32) (hmB : mB.IsWhole)
    (mG : Memref sig .tc .vmem S1x64 .f32) (hmG : mG.IsWhole) (mE : Memref sig .tc .vmem S1x64 .f32) (hmE : mE.IsWhole)
    (mM : Memref sig .tc .vmem S1x64 .f32) (hmM : mM.IsWhole) (mV : Memref sig .tc .vmem S1x64 .f32) (hmV : mV.IsWhole)
    (mO : Memref sig .tc .vmem S5000x64 .f32) (hmO : mO.IsWhole)
    (a h : Vec F S5000x64 .f32) (d : Vec F S5000x1 .f32) (b g be mm vv : Vec F S1x64 .f32) (K : PUnit → sProp 𝕄) :
    iprop(owns (c : Thread nD τ) mA fullShare a ∗ owns (c : Thread nD τ) mH fullShare h ∗ owns (c : Thread nD τ) mD fullShare d
        ∗ owns (c : Thread nD τ) mB fullShare b ∗ owns (c : Thread nD τ) mG fullShare g ∗ owns (c : Thread nD τ) mE fullShare be
        ∗ owns (c : Thread nD τ) mM fullShare mm ∗ owns (c : Thread nD τ) mV fullShare vv ∗ (∃ o, owns (c : Thread nD τ) mO fullShare o)
        ∗ (iprop(owns (c : Thread nD τ) mA fullShare a ∗ owns (c : Thread nD τ) mH fullShare h ∗ owns (c : Thread nD τ) mD fullShare d
            ∗ owns (c : Thread nD τ) mB fullShare b ∗ owns (c : Thread nD τ) mG fullShare g ∗ owns (c : Thread nD τ) mE fullShare be
            ∗ owns (c : Thread nD τ) mM fullShare mm ∗ owns (c : Thread nD τ) mV fullShare vv
            ∗ owns (c : Thread nD τ) mO fullShare (comb1 a h d b g be mm vv)) -∗ K ⟨⟩))
      ⊢ wp frame (wpE (defs₀ (F := F)) Variants.none c none) E (cc1__combine_bn_kernel i mA hmA mH hmH mD hmD mB hmB mG hmG mE hmE mM hmM mV hmV mO hmO) K := by
  simp only [cc1__combine_bn_kernel_eq_skeleton]; unfold cc1__combine_bn_kernel_skel
  unfold owns
  iintro ⟨⟨%fa, %hfa, Ha⟩, ⟨%fh, %hfh, Hh⟩, ⟨%fd, %hfd, Hd⟩, ⟨%fb, %hfb, Hb⟩, ⟨%fg, %hfg, Hg⟩, ⟨%fe, %hfe, He⟩, ⟨%fm, %hfm, Hm⟩, ⟨%fv, %hfv, Hv⟩, ⟨%o, %fo, -, Ho⟩, Hk⟩
  subst hfa; subst hfh; subst hfd; subst hfb; subst hfg; subst hfe; subst hfm; subst hfv
  sl_exec
  sl_step
  iapply Hk
  isplitl [Ha]
  · iexists fa; isplitr; · ipureintro; rfl
    iexact Ha
  isplitl [Hh]
  · iexists fh; isplitr; · ipureintro; rfl
    iexact Hh
  isplitl [Hd]
  · iexists fd; isplitr; · ipureintro; rfl
    iexact Hd
  isplitl [Hb]
  · iexists fb; isplitr; · ipureintro; rfl
    iexact Hb
  isplitl [Hg]
  · iexists fg; isplitr; · ipureintro; rfl
    iexact Hg
  isplitl [He]
  · iexists fe; isplitr; · ipureintro; rfl
    iexact He
  isplitl [Hm]
  · iexists fm; isplitr; · ipureintro; rfl
    iexact Hm
  isplitl [Hv]
  · iexists fv; isplitr; · ipureintro; rfl
    iexact Hv
  iexists _; isplitr
  swap; · iexact Ho
  ipureintro
  exact View.read_writes_eq_canon _ _ _ (covers1 _)

def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => comb1 (blk1 V c 0 t) (blk1 V c 1 t) (blk1 V c 2 t) (blk1 V c 3 t) (blk1 V c 4 t) (blk1 V c 5 t) (blk1 V c 6 t) (blk1 V c 7 t)
  Φ _ := Pipeline.ΦA spec1 c
  q _ := fullShare
  owed _ := 0

theorem after1_8 (c : Dev nD) (t : Fin cfg1.N) : (dat1 V c).after 8 t = comb1 (blk1 V c 0 t) (blk1 V c 1 t) (blk1 V c 2 t) (blk1 V c 3 t) (blk1 V c 4 t) (blk1 V c 5 t) (blk1 V c 6 t) (blk1 V c 7 t) := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = blk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = blk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = blk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = blk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = blk1 V c 7 t :=
  ((dat1 V c).before_in_eq_fetched 7 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_8]
  show _ ⊢ wp _ _ _ (bodyAt1 t) _
  unfold bodyAt1
  iintro ⟨HΦ, Hw, ⟨%da, Ha⟩, ⟨%dh, Hh⟩, ⟨%dd, Hd⟩, ⟨%db, Hb⟩, ⟨%dg, Hg⟩, ⟨%de, He⟩, ⟨%dm, Hm⟩, ⟨%dv, Hv⟩, ⟨%dz, Ho⟩⟩
  iapply (triple1 c Set.univ (grid1.coords t) _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) _)
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  isplitl [Ho]; · iexists _; iexact Ho
  iintro ⟨Ha, Hh, Hd, Hb, Hg, He, Hm, Hv, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  iexact Ho

end Cert.KernelIdeal.Hand

end
-- ==== Proof.KI.Region2.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rO2 : Rect S5000x64 := Rect.unit (s := S5000x64) ![0, 0] S5000x64.size inb_S5000x64_S5000x64_0_0

/-- A block of rows times the whole weight matrix. -/
def prod2 (x : Vec F S5000x64 .f32) (wt : Vec F S64x64 .f32) : Vec F S5000x64 .f32 :=
  View.canon [⟨rO2, k2_pay1 (View.ld x rX2) (View.ld wt rW2)⟩]

theorem covers2 (p : Vec F S5000x64 .f32) (y : S5000x64.Idx) :
    ∃ pc ∈ ([⟨rO2, p⟩] : List (View.Piece (Elt F) S5000x64 .f32)), y ∈ pc.1.set :=
  View.cover_of_tiled [⟨rO2, p⟩] S5000x64.size (by rfl) y

set_option maxHeartbeats 1000000 in

/-- The body leaves its inputs as found and their product in the result. -/
theorem triple2 (c : Dev nD) (E : Set ℕ) (i : grid2.Coords) (arg1 : Memref sig .tc .vmem S5000x64 .f32) (harg1 : arg1.IsWhole)
    (arg2 : Memref sig .tc .vmem S64x64 .f32) (harg2 : arg2.IsWhole) (arg3 : Memref sig .tc .vmem S5000x64 .f32) (harg3 : arg3.IsWhole)
    (x : Vec F S5000x64 .f32) (wt : Vec F S64x64 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt ∗ owns (c : Thread nD τ) arg3 fullShare (prod2 x wt)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-- Row block `t` of the result is row block `t` of the input times the weight matrix. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem after2_2 (c : Dev nD) (t : Fin cfg2.N) : (dat2 V c).after 2 t = prod2 (blk2 V c 0 t) (blk2 V c 1 t) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1]
  rw [show (dat2 V c).Φ t.succ = (dat2 V c).Φ t.castSucc from rfl,
    show (dat2 V c).owesAt () t.succ = (dat2 V c).owesAt () t.castSucc from rfl,
    after2_2]
  show _ ⊢ wp _ _ _ (bodyAt2 t) _
  unfold bodyAt2
  iintro ⟨HΦ, Ho, ⟨%d0, H0⟩, ⟨%d1, H1⟩, ⟨%d2, H2⟩⟩
  iapply (triple2 c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KI.Region3.lean ====
import proofs.«419905_j28260884807710_1_alg».proof.Proof.KI.Region1
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (Pipeline.UD sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => comb1 (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem after3_8 (c : Dev nD) (t : Fin cfg3.N) : (dat3 V c).after 8 t = comb1 (blk3 V c 0 t) (blk3 V c 1 t) (blk3 V c 2 t) (blk3 V c 3 t) (blk3 V c 4 t) (blk3 V c 5 t) (blk3 V c 6 t) (blk3 V c 7 t) := by dsimp only [dat3]

theorem before3_0 (c : Dev nD) (t : Fin cfg3.N) (d) : (dat3 V c).before 0 t d = blk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = blk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = blk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = blk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = blk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = blk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = blk3 V c 6 t :=
  ((dat3 V c).before_in_eq_fetched 6 rfl (fun _ => rfl) (fun _ _ _ => rfl) (fun _ => rfl) t d).trans rfl
theorem before3_7 (c : Dev nD) (t : Fin cfg3.N) (d) : (dat3 V c).before 7 t d = blk3 V c 7 t :=
  ((dat3 V c).before_in_eq_fetched 7 rfl (fun _ => rfl) (fun _ _ _ => rfl) (fun _ => rfl) t d).trans rfl

/-- The second combine has the first's body at the same shapes, so the first's triple serves. -/
theorem body_obligation3 (c : Dev nD) : BodyObligation (dat3 (F := F) V c) (defs₀ (F := F)) Variants.none () Set.univ := fun t => by
  rw [bigSep_W3, bigSep_W3]
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_8]
  show _ ⊢ wp _ _ _ (bodyAt3 t) _
  unfold bodyAt3
  rw [show @cc3__combine_bn_kernel F _ _ = @cc1__combine_bn_kernel F _ _ from rfl]
  iintro ⟨HΦ, Hw, ⟨%da, Ha⟩, ⟨%dh, Hh⟩, ⟨%dd, Hd⟩, ⟨%db, Hb⟩, ⟨%dg, Hg⟩, ⟨%de, He⟩, ⟨%dm, Hm⟩, ⟨%dv, Hv⟩, ⟨%dz, Ho⟩⟩
  iapply (triple1 c Set.univ (grid3.coords t) _ _ _ _ _ _ _ _ _ _ _ _ _ _ _ _ _ _
    (blk3 V c 0 t) (blk3 V c 1 t) (blk3 V c 2 t) (blk3 V c 3 t) (blk3 V c 4 t) (blk3 V c 5 t) (blk3 V c 6 t) (blk3 V c 7 t) _)
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  isplitl [Ho]; · iexists _; iexact Ho
  iintro ⟨Ha, Hh, Hd, Hb, Hg, He, Hm, Hv, Ho⟩
  isplitl [HΦ]; · iexact HΦ
  isplitl [Hw]; · iexact Hw
  isplitl [Ha]; · iexact Ha
  isplitl [Hh]; · iexact Hh
  isplitl [Hd]; · iexact Hd
  isplitl [Hb]; · iexact Hb
  isplitl [Hg]; · iexact Hg
  isplitl [He]; · iexact He
  isplitl [Hm]; · iexact Hm
  isplitl [Hv]; · iexact Hv
  iexact Ho

end Cert.KernelIdeal.Hand

end
-- ==== Proof.KI.Region4.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rX4 : Rect S5000x64 := Rect.unit (s := S5000x64) ![0, 0] S5000x64.size inb_S5000x64_S5000x64_0_0
abbrev rW4 : Rect S64x128 := Rect.unit (s := S64x128) ![0, 0] S64x128.size inb_S64x128_S64x128_0_0
abbrev rO4 : Rect S5000x128 := Rect.unit (s := S5000x128) ![0, 0] S5000x128.size inb_S5000x128_S5000x128_0_0

/-- A block of rows times the whole weight matrix. -/
def prod4 (x : Vec F S5000x64 .f32) (wt : Vec F S64x128 .f32) : Vec F S5000x128 .f32 :=
  View.canon [⟨rO4, k4_pay1 (View.ld x rX4) (View.ld wt rW4)⟩]

theorem covers4 (p : Vec F S5000x128 .f32) (y : S5000x128.Idx) :
    ∃ pc ∈ ([⟨rO4, p⟩] : List (View.Piece (Elt F) S5000x128 .f32)), y ∈ pc.1.set :=
  View.cover_of_tiled [⟨rO4, p⟩] S5000x128.size (by rfl) y

set_option maxHeartbeats 1000000 in

/-- The body leaves its inputs as found and their product in the result. -/
theorem triple4 (c : Dev nD) (E : Set ℕ) (i : grid4.Coords) (arg1 : Memref sig .tc .vmem S5000x64 .f32) (harg1 : arg1.IsWhole)
    (arg2 : Memref sig .tc .vmem S64x128 .f32) (harg2 : arg2.IsWhole) (arg3 : Memref sig .tc .vmem S5000x128 .f32) (harg3 : arg3.IsWhole)
    (x : Vec F S5000x64 .f32) (wt : Vec F S64x128 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt ∗ owns (c : Thread nD τ) arg3 fullShare (prod4 x wt)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers4 _)

/-- Row block `t` of the result is row block `t` of the input times the weight matrix. -/
def dat4 (c : Dev nD) : Dat τ (Elt F) Unit ℕ (Pipeline.UD sig nD τ) ℕ cfg4 c where
  A w := V c (Pipeline.arrRef spec4 w)
  after w t := match w with
    | ⟨0, _⟩ => blk4 V c 0 t
    | ⟨1, _⟩ => blk4 V c 1 t
    | ⟨2, _⟩ => prod4 (blk4 V c 0 t) (blk4 V c 1 t)
  Φ _ := Pipeline.ΦA spec4 c
  q _ := fullShare
  owed _ := 0

theorem after4_2 (c : Dev nD) (t : Fin cfg4.N) : (dat4 V c).after 2 t = prod4 (blk4 V c 0 t) (blk4 V c 1 t) := by dsimp only [dat4]

theorem before4_0 (c : Dev nD) (t : Fin cfg4.N) (d) : (dat4 V c).before 0 t d = blk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = blk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1]
  rw [show (dat4 V c).Φ t.succ = (dat4 V c).Φ t.castSucc from rfl,
    show (dat4 V c).owesAt () t.succ = (dat4 V c).owesAt () t.castSucc from rfl,
    after4_2]
  show _ ⊢ wp _ _ _ (bodyAt4 t) _
  unfold bodyAt4
  iintro ⟨HΦ, Ho, ⟨%d0, H0⟩, ⟨%d1, H1⟩, ⟨%d2, H2⟩⟩
  iapply (triple4 c Set.univ (grid4.coords t) _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KI.Region5.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rM5 : Rect S5000x128 := Rect.unit (s := S5000x128) ![0, 0] S5000x128.size inb_S5000x128_S5000x128_0_0
abbrev rD5 : Rect S5000x1 := Rect.unit (s := S5000x1) ![0, 0] S5000x1.size inb_S5000x1_S5000x1_0_0
abbrev rB5 : Rect S1x128 := Rect.unit (s := S1x128) ![0, 0] S1x128.size inb_S1x128_S1x128_0_0

/-- On a block of rows: aggregate plus scaled self term plus bias, clamped at zero. -/
def comb5 (a h : Vec F S5000x128 .f32) (d : Vec F S5000x1 .f32) (b : Vec F S1x128 .f32) : Vec F S5000x128 .f32 :=
  View.canon [⟨rM5, k5_pay1 (View.ld a rM5) (View.ld h rM5) (View.ld d rD5) (View.ld b rB5)⟩]

theorem covers5 (p : Vec F S5000x128 .f32) (y : S5000x128.Idx) :
    ∃ pc ∈ ([⟨rM5, p⟩] : List (View.Piece (Elt F) S5000x128 .f32)), y ∈ pc.1.set :=
  View.cover_of_tiled [⟨rM5, p⟩] S5000x128.size (by rfl) y

set_option maxHeartbeats 1000000 in
theorem triple5 (c : Dev nD) (E : Set ℕ) (i : grid5.Coords) (arg1 : Memref sig .tc .vmem S5000x128 .f32) (harg1 : arg1.IsWhole)
    (arg2 : Memref sig .tc .vmem S5000x128 .f32) (harg2 : arg2.IsWhole) (arg3 : Memref sig .tc .vmem S5000x1 .f32) (harg3 : arg3.IsWhole)
    (arg4 : Memref sig .tc .vmem S1x128 .f32) (harg4 : arg4.IsWhole) (arg5 : Memref sig .tc .vmem S5000x128 .f32) (harg5 : arg5.IsWhole)
    (a h : Vec F S5000x128 .f32) (d : Vec F S5000x1 .f32) (b : Vec F S1x128 .f32) (K : PUnit → sProp 𝕄) :
    iprop(owns (c : Thread nD τ) arg1 fullShare a ∗ owns (c : Thread nD τ) arg2 fullShare h ∗ owns (c : Thread nD τ) arg3 fullShare d
        ∗ owns (c : Thread nD τ) arg4 fullShare b ∗ (∃ e, owns (c : Thread nD τ) arg5 fullShare e)
        ∗ (iprop(owns (c : Thread nD τ) arg1 fullShare a ∗ owns (c : Thread nD τ) arg2 fullShare h ∗ owns (c : Thread nD τ) arg3 fullShare d
            ∗ owns (c : Thread nD τ) arg4 fullShare b ∗ owns (c : Thread nD τ) arg5 fullShare (comb5 a h d b)) -∗ K ⟨⟩))
      ⊢ wp frame (wpE (defs₀ (F := F)) Variants.none c none) E (cc5__combine_relu_kernel i arg1 harg1 arg2 harg2 arg3 harg3 arg4 harg4 arg5 harg5) K := by
  simp only [cc5__combine_relu_kernel_eq_skeleton]; unfold cc5__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers5 _)

def dat5 (c : Dev nD) : Dat τ (Elt F) Unit ℕ (Pipeline.UD sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => comb5 (blk5 V c 0 t) (blk5 V c 1 t) (blk5 V c 2 t) (blk5 V c 3 t)
  Φ _ := Pipeline.ΦA spec5 c
  q _ := fullShare
  owed _ := 0

theorem after5_4 (c : Dev nD) (t : Fin cfg5.N) :
    (dat5 V c).after 4 t = comb5 (blk5 V c 0 t) (blk5 V c 1 t) (blk5 V c 2 t) (blk5 V c 3 t) := by dsimp only [dat5]

theorem before5_0 (c : Dev nD) (t : Fin cfg5.N) (d) : (dat5 V c).before 0 t d = blk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = blk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = blk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = blk5 V c 3 t :=
  ((dat5 V c).before_in_eq_fetched 3 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, before5_2, before5_3]
  rw [show (dat5 V c).Φ t.succ = (dat5 V c).Φ t.castSucc from rfl,
    show (dat5 V c).owesAt () t.succ = (dat5 V c).owesAt () t.castSucc from rfl,
    after5_4]
  show _ ⊢ wp _ _ _ (bodyAt5 t) _
  unfold bodyAt5
  iintro ⟨HΦ, Ho, ⟨%d0, H0⟩, ⟨%d1, H1⟩, ⟨%d2, H2⟩, ⟨%d3, H3⟩, ⟨%d4, H4⟩⟩
  iapply (triple5 c Set.univ (grid5.coords t) _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hand

end
-- ==== Proof.KI.PoolDefs.lean ====
import proofs.«419905_j28260884807710_1_alg».proof.Proof.Gen.KernelIdeal.Skeleton

noncomputable section

namespace Cert.KernelIdeal.Hand

open Cert.KernelIdeal Cert.KernelIdeal.Gen Idealize.ShloMosaic

variable {F : FTy → Type} [FloatOps F]

abbrev pt20 (n : ℕ) : Fin 20 := ⟨n % 20, Nat.mod_lt _ (by decide)⟩

def poolAcc (bB : Fin 20 → Vec F S5000x1 .i32) (bH : Fin 20 → Vec F S5000x128 .f32) :
    ℕ → Vec F S256x128 .f32 × Vec F S256x1 .f32
  | 0 => (k6_pay4 (bB (pt20 0)) (bH (pt20 0)) (k6_pay1 (F := F)), k6_pay5 (bB (pt20 0)) (k6_pay2 (F := F)))
  | n + 1 => (k6_pay4 (bB (pt20 (n + 1))) (bH (pt20 (n + 1))) (poolAcc bB bH n).1,
              k6_pay5 (bB (pt20 (n + 1))) (poolAcc bB bH n).2)

theorem poolAcc_zero (bB : Fin 20 → Vec F S5000x1 .i32) (bH : Fin 20 → Vec F S5000x128 .f32) :
    poolAcc bB bH 0 = (k6_pay4 (bB (pt20 0)) (bH (pt20 0)) (k6_pay1 (F := F)), k6_pay5 (bB (pt20 0)) (k6_pay2 (F := F))) := rfl

theorem poolAcc_succ (bB : Fin 20 → Vec F S5000x1 .i32) (bH : Fin 20 → Vec F S5000x128 .f32) (n : ℕ) :
    poolAcc bB bH (n + 1) = (k6_pay4 (bB (pt20 (n + 1))) (bH (pt20 (n + 1))) (poolAcc bB bH n).1,
              k6_pay5 (bB (pt20 (n + 1))) (poolAcc bB bH n).2) := rfl

end Cert.KernelIdeal.Hand

end
-- ==== Proof.KI.Region6.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import proofs.«419905_j28260884807710_1_alg».proof.Proof.KI.PoolDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev gidBlk6 (c : Dev nD) (t : Fin 20) : Vec F S5000x1 .i32 := blk6 V c 0 ⟨t.val, by rw [show cfg6.N = 20 from N_6]; exact t.isLt⟩
abbrev featBlk6 (c : Dev nD) (t : Fin 20) : Vec F S5000x128 .f32 := blk6 V c 1 ⟨t.val, by rw [show cfg6.N = 20 from N_6]; exact t.isLt⟩

def acc6 (c : Dev nD) (n : ℕ) : Vec F S256x128 .f32 × Vec F S256x1 .f32 := poolAcc (gidBlk6 V c) (featBlk6 V c) n

abbrev scM6_0 : Memref sig .tc .vmem S256x128 .f32 := Memref.whole cc6_scratch0
abbrev scM6_1 : Memref sig .tc .vmem S256x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := Pipeline.UD sig nD τ) (Lvl := ℕ) (Val := Elt F) spec6 c [cc6_scratch0, cc6_scratch1])
        ∗ (∃ r, prngReg c r)) := by
  unfold Pipeline.ΦA; rw [scopedRest6_split]; simp only [scM6_0, scM6_1, owns_whole]; try rfl

/-- After `n` points the two accumulators hold the one-hot sums over the first `n` blocks of nodes. -/
def Phi6 (c : Dev nD) : ℕ → sProp 𝕄
  | 0 => Pipeline.ΦA spec6 c
  | n + 1 => iprop(iprop(iprop(owns (c : Thread nD τ) scM6_0 fullShare (acc6 V c n).1 ∗ owns (c : Thread nD τ) scM6_1 fullShare (acc6 V c n).2)
          ∗ Pipeline.scopedRestBut (Ix := Unit) (Name := ℕ) (U := Pipeline.UD sig nD τ) (Lvl := ℕ) (Val := Elt F) spec6 c [cc6_scratch0, cc6_scratch1])
        ∗ (∃ r, prngReg c r))

theorem Phi6_zero (c : Dev nD) : Phi6 V c 0 = Pipeline.ΦA spec6 c := rfl

theorem Phi6_succ (c : Dev nD) (n : ℕ) :
    Phi6 V c (n + 1) = iprop(iprop(iprop(owns (c : Thread nD τ) scM6_0 fullShare (acc6 V c n).1 ∗ owns (c : Thread nD τ) scM6_1 fullShare (acc6 V c n).2)
          ∗ Pipeline.scopedRestBut (Ix := Unit) (Name := ℕ) (U := Pipeline.UD sig nD τ) (Lvl := ℕ) (Val := Elt F) spec6 c [cc6_scratch0, cc6_scratch1])
        ∗ (∃ r, prngReg c r)) := rfl

def dat6 (c : Dev nD) : Dat τ (Elt F) Unit ℕ (Pipeline.UD sig nD τ) ℕ cfg6 c where
  A w := V c (Pipeline.arrRef spec6 w)
  after w t := match w with
    | ⟨0, _⟩ => blk6 V c 0 t
    | ⟨1, _⟩ => blk6 V c 1 t
    | ⟨2, _⟩ => (acc6 V c t.val).1
    | ⟨3, _⟩ => (acc6 V c t.val).2
  Φ t := Phi6 V c t.val
  q _ := fullShare
  owed _ := 0

theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = (acc6 V c t.val).1 := by dsimp only [dat6]
theorem after6_3 (c : Dev nD) (t : Fin cfg6.N) : (dat6 V c).after 3 t = (acc6 V c t.val).2 := by dsimp only [dat6]

theorem hin6 (c : Dev nD) : Pipeline.ΦA spec6 c ⊢ (dat6 V c).Φ 0 := by
  rw [show (dat6 V c).Φ 0 = Phi6 V c 0 from rfl, Phi6_zero]

theorem hout6 (c : Dev nD) : (dat6 V c).Φ (Fin.last cfg6.N) ⊢ Pipeline.ΦA spec6 c := by
  rw [show (dat6 V c).Φ (Fin.last cfg6.N) = Phi6 V c (19 + 1) from rfl, Phi6_succ, PhiA6_eq]
  iintro ⟨⟨⟨HS0, HS1⟩, HR⟩, Hg⟩
  iframe
  isplitl [HS0] <;> (iexists _; iassumption)

abbrev cond6_0 (i : grid6.Coords) : Prop := (Scalar.cmpi .ne (Scalar.extui (Scalar.cmpi .eq (BitVec.ofNat 32 (i 0).val) 0#32)) 0#32) = 1#1

abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

theorem zero2_6 : (![0, 0] : Fin 2 → Nat) = fun _ => 0 := funext fun a => by fin_cases a <;> rfl

set_option maxHeartbeats 1000000 in
theorem tripleMid6 (c : Dev nD) (E : Set ℕ) (i : grid6.Coords)
    (arg1 : Memref sig .tc .vmem S5000x1 .i32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S256x1 .f32) (harg4 : arg4.IsWhole)
    (arg5 : Memref sig .tc .vmem S256x128 .f32) (harg5 : arg5.IsWhole) (arg6 : Memref sig .tc .vmem S256x1 .f32) (harg6 : arg6.IsWhole)
    (hc0 : ¬cond6_0 i) (hc1 : ¬cond6_1 i)
    (x : Vec F S5000x1 .i32) (h : Vec F S5000x128 .f32) (s : Vec F S256x128 .f32) (k : Vec F S256x1 .f32) (K : PUnit → sProp 𝕄) :
    iprop(owns (c : Thread nD τ) arg1 fullShare x ∗ owns (c : Thread nD τ) arg2 fullShare h
        ∗ owns (c : Thread nD τ) arg5 fullShare s ∗ owns (c : Thread nD τ) arg6 fullShare k
        ∗ (iprop(owns (c : Thread nD τ) arg1 fullShare x ∗ owns (c : Thread nD τ) arg2 fullShare h
            ∗ owns (c : Thread nD τ) arg5 fullShare (k6_pay4 x h s) ∗ owns (c : Thread nD τ) arg6 fullShare (k6_pay5 x k)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  all_goals
    iexists _; isplitr
    swap; · iassumption
    ipureintro
    sl_unfold_run_names
    first
      | rw [View.read_writes_eq_canon _ _ _ (fun y => ⟨_, List.mem_cons_self .., View.mem_set_unit_zero zero2_6 inb_S256x128_S256x128_0_0 y⟩),
          View.canon_cons_unit_zero zero2_6]
      | rw [View.read_writes_eq_canon _ _ _ (fun y => ⟨_, List.mem_cons_self .., View.mem_set_unit_zero zero2_6 inb_S256x1_S256x1_0_0 y⟩),
          View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]

set_option maxHeartbeats 1000000 in
theorem tripleFirst6 (c : Dev nD) (E : Set ℕ) (i : grid6.Coords)
    (arg1 : Memref sig .tc .vmem S5000x1 .i32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S256x1 .f32) (harg4 : arg4.IsWhole)
    (arg5 : Memref sig .tc .vmem S256x128 .f32) (harg5 : arg5.IsWhole) (arg6 : Memref sig .tc .vmem S256x1 .f32) (harg6 : arg6.IsWhole)
    (hc0 : cond6_0 i) (hc1 : ¬cond6_1 i)
    (x : Vec F S5000x1 .i32) (h : Vec F S5000x128 .f32) (K : PUnit → sProp 𝕄) :
    iprop(owns (c : Thread nD τ) arg1 fullShare x ∗ owns (c : Thread nD τ) arg2 fullShare h
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare h
            ∗ owns (c : Thread nD τ) arg5 fullShare (k6_pay4 x h (k6_pay1 (F := F))) ∗ owns (c : Thread nD τ) arg6 fullShare (k6_pay5 x (k6_pay2 (F := F)))) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  all_goals
    iexists _; isplitr
    swap; · iassumption
    ipureintro
    sl_unfold_run_names
    first
      | rw [View.read_writes_eq_canon _ _ _ (fun y => ⟨_, List.mem_cons_self .., View.mem_set_unit_zero zero2_6 inb_S256x128_S256x128_0_0 y⟩),
          View.canon_cons_unit_zero zero2_6]
      | rw [View.read_writes_eq_canon _ _ _ (fun y => ⟨_, List.mem_cons_self .., View.mem_set_unit_zero zero2_6 inb_S256x1_S256x1_0_0 y⟩),
          View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]

set_option maxHeartbeats 1000000 in
theorem tripleLast6 (c : Dev nD) (E : Set ℕ) (i : grid6.Coords)
    (arg1 : Memref sig .tc .vmem S5000x1 .i32) (harg1 : arg1.IsWhole) (arg2 : Memref sig .tc .vmem S5000x128 .f32) (harg2 : arg2.IsWhole)
    (arg3 : Memref sig .tc .vmem S256x128 .f32) (harg3 : arg3.IsWhole) (arg4 : Memref sig .tc .vmem S256x1 .f32) (harg4 : arg4.IsWhole)
    (arg5 : Memref sig .tc .vmem S256x128 .f32) (harg5 : arg5.IsWhole) (arg6 : Memref sig .tc .vmem S256x1 .f32) (harg6 : arg6.IsWhole)
    (hc0 : ¬cond6_0 i) (hc1 : cond6_1 i)
    (x : Vec F S5000x1 .i32) (h : Vec F S5000x128 .f32) (s : Vec F S256x128 .f32) (k : Vec F S256x1 .f32) (K : PUnit → sProp 𝕄) :
    iprop(owns (c : Thread nD τ) arg1 fullShare x ∗ owns (c : Thread nD τ) arg2 fullShare h
        ∗ (∃ d, owns (c : Thread nD τ) arg3 fullShare d) ∗ (∃ d, owns (c : Thread nD τ) arg4 fullShare d)
        ∗ owns (c : Thread nD τ) arg5 fullShare s ∗ owns (c : Thread nD τ) arg6 fullShare k
        ∗ (iprop(owns (c : Thread nD τ) arg1 fullShare x ∗ owns (c : Thread nD τ) arg2 fullShare h
            ∗ owns (c : Thread nD τ) arg3 fullShare (k6_pay4 x h s) ∗ owns (c : Thread nD τ) arg4 fullShare (k6_pay5 x k)
            ∗ owns (c : Thread nD τ) arg5 fullShare (k6_pay4 x h s) ∗ owns (c : Thread nD τ) arg6 fullShare (k6_pay5 x k)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]; swap; isplitl [H3]; swap; isplitl [H4]
  pick_goal 4
  iterate 2
    iexists _; isplitr
    swap; · iassumption
    ipureintro
    sl_unfold_run_names
    rw [View.read_writes_eq_canon _ _ _ (fun y => ⟨_, List.mem_cons_self .., View.mem_set_unit_zero zero2_6 inb_S256x128_S256x128_0_0 y⟩),
      View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]
  all_goals
    iexists _; isplitr
    swap; · iassumption
    ipureintro
    sl_unfold_run_names
    rw [View.read_writes_eq_canon _ _ _ (fun y => ⟨_, List.mem_cons_self .., View.mem_set_unit_zero zero2_6 inb_S256x1_S256x1_0_0 y⟩),
      View.canon_cons_unit_zero zero2_6]
    simp only [View.readAt_eq_ld, View.ld_unit_zero (S := S5000x1) zero2_6, View.ld_unit_zero (S := S5000x128) zero2_6,
      View.ld_unit_zero (S := S256x128) zero2_6, View.ld_unit_zero (S := S256x1) zero2_6,
      View.readCov_unit_zero (S := S256x128) _ zero2_6, View.readCov_unit_zero (S := S256x1) _ zero2_6]

theorem before6_0 (c : Dev nD) (t : Fin cfg6.N) (d) : (dat6 V c).before 0 t d = blk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = blk6 V c 1 t :=
  ((dat6 V c).before_in_eq_fetched 1 rfl (fun _ => rfl) (fun _ _ _ => rfl) (fun _ => rfl) t d).trans rfl

theorem liveAt6_0 : ∀ t : Fin cfg6.N, cfg6.idle 0 (grid6.coords t) = false := fun _ => rfl
theorem liveAt6_1 : ∀ t : Fin cfg6.N, cfg6.idle 1 (grid6.coords t) = false := fun _ => rfl

theorem idleAt6_2 : ∀ t : Fin cfg6.N, ¬cond6_1 (grid6.coords t) → cfg6.idle 2 (grid6.coords t) = true := by decide +kernel
theorem idleAt6_3 : ∀ t : Fin cfg6.N, ¬cond6_1 (grid6.coords t) → cfg6.idle 3 (grid6.coords t) = true := by decide +kernel
theorem noFlush6_2 : ∀ t : Fin cfg6.N, ¬cond6_1 (grid6.coords t) → (cfg6.win 2).flush t = false := by decide +kernel
theorem noFlush6_3 : ∀ t : Fin cfg6.N, ¬cond6_1 (grid6.coords t) → (cfg6.win 3).flush t = false := by decide +kernel
theorem liveAt6_2 : ∀ t : Fin cfg6.N, cond6_1 (grid6.coords t) → cfg6.idle 2 (grid6.coords t) = false := by decide +kernel
theorem liveAt6_3 : ∀ t : Fin cfg6.N, cond6_1 (grid6.coords t) → cfg6.idle 3 (grid6.coords t) = false := by decide +kernel

theorem gidBlk6_pt (c : Dev nD) (t : Fin cfg6.N) : gidBlk6 V c (pt20 t.val) = blk6 V c 0 t := by
  have ht : t.val < 20 := lt_of_lt_of_eq t.isLt (show cfg6.N = 20 from N_6)
  have e : (⟨(pt20 t.val).val, lt_of_lt_of_eq (pt20 t.val).isLt (show (20 : ℕ) = cfg6.N from N_6.symm)⟩ : Fin cfg6.N) = t := Fin.ext (Nat.mod_eq_of_lt ht)
  exact congrArg (β := Vec F S5000x1 .i32) (fun u : Fin cfg6.N => blk6 V c 0 u) e

theorem featBlk6_pt (c : Dev nD) (t : Fin cfg6.N) : featBlk6 V c (pt20 t.val) = blk6 V c 1 t := by
  have ht : t.val < 20 := lt_of_lt_of_eq t.isLt (show cfg6.N = 20 from N_6)
  have e : (⟨(pt20 t.val).val, lt_of_lt_of_eq (pt20 t.val).isLt (show (20 : ℕ) = cfg6.N from N_6.symm)⟩ : Fin cfg6.N) = t := Fin.ext (Nat.mod_eq_of_lt ht)
  exact congrArg (β := Vec F S5000x128 .f32) (fun u : Fin cfg6.N => blk6 V c 1 u) e

theorem acc6_first (c : Dev nD) (t : Fin cfg6.N) (h0 : t.val = 0) :
    acc6 V c t.val = (k6_pay4 (blk6 V c 0 t) (blk6 V c 1 t) (k6_pay1 (F := F)), k6_pay5 (blk6 V c 0 t) (k6_pay2 (F := F))) := by
  rw [← gidBlk6_pt V c t, ← featBlk6_pt V c t, h0]; rfl

theorem acc6_step (c : Dev nD) (t : Fin cfg6.N) (h0 : t.val ≠ 0) :
    acc6 V c t.val = (k6_pay4 (blk6 V c 0 t) (blk6 V c 1 t) (acc6 V c (t.val - 1)).1, k6_pay5 (blk6 V c 0 t) (acc6 V c (t.val - 1)).2) := by
  rw [← gidBlk6_pt V c t, ← featBlk6_pt V c t]
  obtain ⟨n, hn⟩ : ∃ n, t.val = n + 1 := ⟨t.val - 1, by omega⟩
  rw [hn]; rfl

theorem Phi6_pos (c : Dev nD) (n : ℕ) (hn : n ≠ 0) :
    Phi6 V c n = iprop(iprop(iprop(owns (c : Thread nD τ) scM6_0 fullShare (acc6 V c (n - 1)).1 ∗ owns (c : Thread nD τ) scM6_1 fullShare (acc6 V c (n - 1)).2)
          ∗ Pipeline.scopedRestBut (Ix := Unit) (Name := ℕ) (U := Pipeline.UD sig nD τ) (Lvl := ℕ) (Val := Elt F) spec6 c [cc6_scratch0, cc6_scratch1])
        ∗ (∃ r, prngReg c r)) := by
  cases n with
  | zero => exact absurd rfl hn
  | succ n => rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 2000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl,
    show (dat6 V c).Φ t.succ = Phi6 V c (t.val + 1) from rfl, Phi6_succ,
    show (dat6 V c).Φ t.castSucc = Phi6 V c t.val from rfl]
  rw [show (dat6 V c).leavesExact 0 t = owns (c : Thread nD τ) (st6_0 t) fullShare ((dat6 V c).after 0 t) from by
      unfold Dat.leavesExact; rw [liveAt6_0 t], after6_0]
  rw [show (dat6 V c).leavesExact 1 t = owns (c : Thread nD τ) (st6_1 t) fullShare ((dat6 V c).after 1 t) from by
      unfold Dat.leavesExact; rw [liveAt6_1 t], after6_1]
  have hN : t.val < 20 := lt_of_lt_of_eq t.isLt (show cfg6.N = 20 from N_6)
  by_cases h0 : t.val = 0
  ·
    have hc0 : cond6_0 (grid6.coords t) := (hcond6_0 t).mpr h0
    have hc1 : ¬cond6_1 (grid6.coords t) := fun hh => by have := (hcond6_1 t).mp hh; omega
    rw [Dat.leavesExact_idle (dat6 V c) 2 t (idleAt6_2 t hc1) (noFlush6_2 t hc1),
      Dat.leavesExact_idle (dat6 V c) 3 t (idleAt6_3 t hc1) (noFlush6_3 t hc1)]
    rw [acc6_first V c t h0, h0, Phi6_zero, PhiA6_eq]
    iintro ⟨⟨⟨⟨HS0, HS1⟩, HR⟩, Hg⟩, Ho, ⟨%d0, H0⟩, ⟨%d1, H1⟩, ⟨%d2, H2⟩, ⟨%d3, H3⟩⟩
    iapply (tripleFirst6 c Set.univ (grid6.coords t) _ _ _ _ _ _ _ _ _ _ _ _ hc0 hc1 (blk6 V c 0 t) (blk6 V c 1 t) _)
    iframe
    iintro ⟨H0, H1, HS0, HS1⟩
    iframe
    isplitl [H2]; · iexists _; iexact H2
    iexists _; iexact H3
  · have hc0 : ¬cond6_0 (grid6.coords t) := fun hh => h0 ((hcond6_0 t).mp hh)
    rw [acc6_step V c t h0, Phi6_pos V c t.val h0]
    by_cases h1 : t.val = 19
    ·
      have hc1 : cond6_1 (grid6.coords t) := (hcond6_1 t).mpr h1
      rw [show (dat6 V c).leavesExact 2 t = owns (c : Thread nD τ) (st6_2 t) fullShare ((dat6 V c).after 2 t) from by
          unfold Dat.leavesExact; rw [liveAt6_2 t hc1], after6_2]
      rw [show (dat6 V c).leavesExact 3 t = owns (c : Thread nD τ) (st6_3 t) fullShare ((dat6 V c).after 3 t) from by
          unfold Dat.leavesExact; rw [liveAt6_3 t hc1], after6_3]
      rw [acc6_step V c t h0]
      iintro ⟨⟨⟨⟨HS0, HS1⟩, HR⟩, Hg⟩, Ho, ⟨%d0, H0⟩, ⟨%d1, H1⟩, ⟨%d2, H2⟩, ⟨%d3, H3⟩⟩
      iapply (tripleLast6 c Set.univ (grid6.coords t) _ _ _ _ _ _ _ _ _ _ _ _ hc0 hc1 (blk6 V c 0 t) (blk6 V c 1 t) (acc6 V c (t.val - 1)).1 (acc6 V c (t.val - 1)).2 _)
      iframe
      isplitl [H2]; · iexists _; iexact H2
      isplitl [H3]; · iexists _; iexact H3
      iintro ⟨H0, H1, H2, H3, HS0, HS1⟩
      iframe
    ·
      have hc1 : ¬cond6_1 (grid6.coords t) := fun hh => h1 ((hcond6_1 t).mp hh)
      rw [Dat.leavesExact_idle (dat6 V c) 2 t (idleAt6_2 t hc1) (noFlush6_2 t hc1),
        Dat.leavesExact_idle (dat6 V c) 3 t (idleAt6_3 t hc1) (noFlush6_3 t hc1)]
      iintro ⟨⟨⟨⟨HS0, HS1⟩, HR⟩, Hg⟩, Ho, ⟨%d0, H0⟩, ⟨%d1, H1⟩, ⟨%d2, H2⟩, ⟨%d3, H3⟩⟩
      iapply (tripleMid6 c Set.univ (grid6.coords t) _ _ _ _ _ _ _ _ _ _ _ _ hc0 hc1 (blk6 V c 0 t) (blk6 V c 1 t) (acc6 V c (t.val - 1)).1 (acc6 V c (t.val - 1)).2 _)
      iframe
      iintro ⟨H0, H1, HS0, HS1⟩
      iframe
      isplitl [H2]; · iexists _; iexact H2
      iexists _; iexact H3

theorem body_obligation6 (c : Dev nD) : BodyObligation (dat6 (F := F) V c) (defs₀ (F := F)) Variants.none () Set.univ := fun t => by
  rw [bigSep_W6, bigSep_W6]
  exact sound_body6 V c t

theorem idx6 : ∀ t : Fin cfg6.N, win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

theorem flushAt6_2 (t : Fin cfg6.N) (hf : (cfg6.win 2).flush t = true) : t.val = 19 := by
  have hN : t.val < 20 := lt_of_lt_of_eq t.isLt (show cfg6.N = 20 from N_6)
  have := (flush6_2 t).mp hf; omega
theorem flushAt6_3 (t : Fin cfg6.N) (hf : (cfg6.win 3).flush t = true) : t.val = 19 := by
  have hN : t.val < 20 := lt_of_lt_of_eq t.isLt (show cfg6.N = 20 from N_6)
  have := (flush6_3 t).mp hf; omega

theorem cut_eq_read6_2 (t : Fin cfg6.N) (G : Vec F S256x128 .f32) :
    (cfg6.win 2).cut (grid6.coords t) G = ((cfg6.win 2).blk t).view.read (Elt F) G := by
  obtain ⟨e0, e1, e2, e3⟩ := idx6 t
  funext y
  show G y = G (((cfg6.win 2).blk t).view.emb y)
  congr 1
  funext a; apply Fin.ext
  match a with
  | ⟨0, _⟩ => show (y 0).val = win6_2.index t (0 : Fin 2) * 256 + 1 * (y 0).val; omega
  | ⟨1, _⟩ => show (y 1).val = win6_2.index t (1 : Fin 2) * 128 + 1 * (y 1).val; omega
theorem cut_eq_read6_3 (t : Fin cfg6.N) (G : Vec F S256x1 .f32) :
    (cfg6.win 3).cut (grid6.coords t) G = ((cfg6.win 3).blk t).view.read (Elt F) G := by
  obtain ⟨e0, e1, e2, e3⟩ := idx6 t
  funext y
  show G y = G (((cfg6.win 3).blk t).view.emb y)
  congr 1
  funext a; apply Fin.ext
  match a with
  | ⟨0, _⟩ => show (y 0).val = win6_3.index t (0 : Fin 2) * 256 + 1 * (y 0).val; omega
  | ⟨1, _⟩ => show (y 1).val = win6_3.index t (1 : Fin 2) * 1 + 1 * (y 1).val; omega

theorem flushed6_2 (c : Dev nD) (t : Fin cfg6.N) (hf : (cfg6.win 2).flush t = true) :
    (dat6 V c).flushed 2 t = ((cfg6.win 2).blk t).view.read (Elt F) (acc6 V c 19).1 := by
  have h19 := flushAt6_2 t hf
  show (cfg6.win 2).cut (grid6.coords t) ((dat6 V c).after 2 t) = _
  rw [after6_2, h19]
  exact cut_eq_read6_2 t _

theorem flushed6_3 (c : Dev nD) (t : Fin cfg6.N) (hf : (cfg6.win 3).flush t = true) :
    (dat6 V c).flushed 3 t = ((cfg6.win 3).blk t).view.read (Elt F) (acc6 V c 19).2 := by
  have h19 := flushAt6_3 t hf
  show (cfg6.win 3).cut (grid6.coords t) ((dat6 V c).after 3 t) = _
  rw [after6_3, h19]
  exact cut_eq_read6_3 t _

theorem mem_blk6_2 (t : Fin cfg6.N) (i : S256x128.Idx) :
    i ∈ ((cfg6.win 2).blk t).view.set ↔ ∀ a : Fin 2, win6_2.index t a * S256x128.size a ≤ (i a).val ∧ (i a).val < win6_2.index t a * S256x128.size a + S256x128.size a := by
  show i ∈ ((View.whole main_v85_0).slice (win6_2.rect t)).set ↔ _
  rw [View.set_slice_whole, Rect.mem_set_unit]
  exact Iff.rfl
theorem mem_blk6_3 (t : Fin cfg6.N) (i : S256x1.Idx) :
    i ∈ ((cfg6.win 3).blk t).view.set ↔ ∀ a : Fin 2, win6_3.index t a * S256x1.size a ≤ (i a).val ∧ (i a).val < win6_3.index t a * S256x1.size a + S256x1.size a := by
  show i ∈ ((View.whole main_v85_1).slice (win6_3.rect t)).set ↔ _
  rw [View.set_slice_whole, Rect.mem_set_unit]
  exact Iff.rfl

theorem cover6_2 (i : S256x128.Idx) : ∃ t : Fin cfg6.N, (cfg6.win 2).flush t = true ∧ i ∈ ((cfg6.win 2).blk t).view.set := by
  have hi0 : (i 0).val < 256 := (i 0).isLt
  have hi1 : (i 1).val < 128 := (i 1).isLt
  have hN : cfg6.N = 20 := N_6
  refine ⟨⟨19, by omega⟩, (flush6_2 _).mpr rfl, ?_⟩
  rw [mem_blk6_2]
  obtain ⟨e0, e1, e2, e3⟩ := idx6 ⟨19, by omega⟩
  intro a
  match a with
  | ⟨0, _⟩ => show win6_2.index _ (0 : Fin 2) * 256 ≤ (i 0).val ∧ (i 0).val < win6_2.index _ (0 : Fin 2) * 256 + 256; rw [e0]; omega
  | ⟨1, _⟩ => show win6_2.index _ (1 : Fin 2) * 128 ≤ (i 1).val ∧ (i 1).val < win6_2.index _ (1 : Fin 2) * 128 + 128; rw [e1]; omega
theorem cover6_3 (i : S256x1.Idx) : ∃ t : Fin cfg6.N, (cfg6.win 3).flush t = true ∧ i ∈ ((cfg6.win 3).blk t).view.set := by
  have hi0 : (i 0).val < 256 := (i 0).isLt
  have hi1 : (i 1).val < 1 := (i 1).isLt
  have hN : cfg6.N = 20 := N_6
  refine ⟨⟨19, by omega⟩, (flush6_3 _).mpr rfl, ?_⟩
  rw [mem_blk6_3]
  obtain ⟨e0, e1, e2, e3⟩ := idx6 ⟨19, by omega⟩
  intro a
  match a with
  | ⟨0, _⟩ => show win6_3.index _ (0 : Fin 2) * 256 ≤ (i 0).val ∧ (i 0).val < win6_3.index _ (0 : Fin 2) * 256 + 256; rw [e2]; omega
  | ⟨1, _⟩ => show win6_3.index _ (1 : Fin 2) * 1 ≤ (i 1).val ∧ (i 1).val < win6_3.index _ (1 : Fin 2) * 1 + 1; rw [e3]; omega

theorem arrAt6_2 (c : Dev nD) : (dat6 V c).arrAt 2 cfg6.N = (acc6 V c 19).1 :=
  (dat6 V c).arrAt_eq_of_cover 2 _ (fun t hf => flushed6_2 V c t hf) cover6_2
theorem arrAt6_3 (c : Dev nD) : (dat6 V c).arrAt 3 cfg6.N = (acc6 V c 19).2 :=
  (dat6 V c).arrAt_eq_of_cover 3 _ (fun t hf => flushed6_3 V c t hf) cover6_3

end Cert.KernelIdeal.Hand

end
-- ==== Proof.KI.Fold.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419905_j28260884807710_1_alg».proof.Proof.Gen.KernelIdeal.Regions
import proofs.«419905_j28260884807710_1_alg».proof.Proof.KI.Region0
import proofs.«419905_j28260884807710_1_alg».proof.Proof.KI.Region1
import proofs.«419905_j28260884807710_1_alg».proof.Proof.KI.Region2
import proofs.«419905_j28260884807710_1_alg».proof.Proof.KI.Region3
import proofs.«419905_j28260884807710_1_alg».proof.Proof.KI.Region4
import proofs.«419905_j28260884807710_1_alg».proof.Proof.KI.Region5
import proofs.«419905_j28260884807710_1_alg».proof.Proof.KI.Region6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev atTc (W : Dev nD → Valuation τ sig (Elt F)) (c : Dev nD) (b : Ref sig .tc) : Buf (Elt F) ((c : Thread nD τ).loc b) := W c b

/-- A buffer that is no output array of a region holds after the region what it held before. -/
theorem region_keep {Λ : Labels} {cfg : Cfg sig Λ} {c : Dev nD} (dat : Dat τ (Elt F) Unit ℕ (Pipeline.UD sig nD τ) ℕ cfg c)
    (hinj : Function.Injective (Pipeline.arrRef cfg.spec)) (X : Valuation τ sig (Elt F))
    (hA : ∀ w, dat.A w = X (Proc.devRef .tc (Pipeline.arrRef cfg.spec w))) (b : Ref sig .tc)
    (h : ∀ w, (cfg.win w).isOut = true → Pipeline.arrRef cfg.spec w ≠ b) :
    Pipeline.withArrays cfg.spec c X (fun w => dat.arrAt w cfg.N) (Proc.devRef .tc b) = X (Proc.devRef .tc b) := by
  by_cases hb : ∃ w, Pipeline.arrRef cfg.spec w = b
  · obtain ⟨w, rfl⟩ := hb
    cases hw : (cfg.win w).isOut with
    | false => exact (Pipeline.withArrays_arr cfg.spec hinj c X _ w).trans ((dat.arrAt_in w hw _).trans (hA w))
    | true => exact absurd rfl (h w hw)
  · exact Pipeline.withArrays_of_ne cfg.spec c X _ b fun w e => hb ⟨w, e⟩

theorem region_rest {gr W : Nat} (win : Fin W → Pipeline.WinSpec sig gr) (c : Dev nD) (X : Valuation τ sig (Elt F))
    (A : (w : Fin W) → Buf (Elt F) ((win w).arr.view.loc (c : Thread nD τ))) (b : Ref sig .tc)
    (hb : b ∉ Finset.univ.image (Pipeline.arrRef win)) :
    Pipeline.withArrays win c X A (Proc.devRef .tc b) = X (Proc.devRef .tc b) :=
  Pipeline.withArrays_of_ne win c X A b fun w e => hb (Finset.mem_image.mpr ⟨w, Finset.mem_univ _, e⟩)

abbrev U0 (c : Dev nD) : Valuation τ sig (Elt F) := fun b => m (c, b)
abbrev U1 (c : Dev nD) : Valuation τ sig (Elt F) := StableHlo.after hostOps0 (U0 m c)
theorem U1_keep (c : Dev nD) (r : Ref sig .tc) (h : r ∉ hostOps0_W) : U1 m c r = U0 m c r :=
  StableHlo.after_of_writes_sub hostOps0 _ hostOps0_writes h
def U2 (c : Dev nD) : Valuation τ sig (Elt F) :=
  Pipeline.withArrays spec0 c (U1 m c) fun w => (dat0 (atTc (U1 m)) c).arrAt w cfg0.N
theorem U2_arr (c : Dev nD) (w : Fin cfg0.W) :
    U2 m c (Proc.devRef .tc (Pipeline.arrRef spec0 w)) = (dat0 (atTc (U1 m)) c).arrAt w cfg0.N :=
  Pipeline.withArrays_arr spec0 launch0.win.arr_inj c _ _ w
theorem U2_keep (c : Dev nD) (b : Ref sig .tc) (h : ∀ w : Fin cfg0.W, (cfg0.win w).isOut = true → Pipeline.arrRef spec0 w ≠ b) :
    U2 m c (Proc.devRef .tc b) = U1 m c (Proc.devRef .tc b) :=
  region_keep (dat0 (atTc (U1 m)) c) launch0.win.arr_inj (U1 m c) (fun _ => rfl) b h
abbrev U3 (c : Dev nD) : Valuation τ sig (Elt F) := StableHlo.after hostOps1 (U2 m c)
theorem U3_keep (c : Dev nD) (r : Ref sig .tc) (h : r ∉ hostOps1_W) : U3 m c r = U2 m c r :=
  StableHlo.after_of_writes_sub hostOps1 _ hostOps1_writes h
def U4 (c : Dev nD) : Valuation τ sig (Elt F) :=
  Pipeline.withArrays spec1 c (U3 m c) fun w => (dat1 (atTc (U3 m)) c).arrAt w cfg1.N
theorem U4_arr (c : Dev nD) (w : Fin cfg1.W) :
    U4 m c (Proc.devRef .tc (Pipeline.arrRef spec1 w)) = (dat1 (atTc (U3 m)) c).arrAt w cfg1.N :=
  Pipeline.withArrays_arr spec1 launch1.win.arr_inj c _ _ w
theorem U4_keep (c : Dev nD) (b : Ref sig .tc) (h : ∀ w : Fin cfg1.W, (cfg1.win w).isOut = true → Pipeline.arrRef spec1 w ≠ b) :
    U4 m c (Proc.devRef .tc b) = U3 m c (Proc.devRef .tc b) :=
  region_keep (dat1 (atTc (U3 m)) c) launch1.win.arr_inj (U3 m c) (fun _ => rfl) b h
def U5 (c : Dev nD) : Valuation τ sig (Elt F) :=
  Pipeline.withArrays spec2 c (U4 m c) fun w => (dat2 (atTc (U4 m)) c).arrAt w cfg2.N
theorem U5_arr (c : Dev nD) (w : Fin cfg2.W) :
    U5 m c (Proc.devRef .tc (Pipeline.arrRef spec2 w)) = (dat2 (atTc (U4 m)) c).arrAt w cfg2.N :=
  Pipeline.withArrays_arr spec2 launch2.win.arr_inj c _ _ w
theorem U5_keep (c : Dev nD) (b : Ref sig .tc) (h : ∀ w : Fin cfg2.W, (cfg2.win w).isOut = true → Pipeline.arrRef spec2 w ≠ b) :
    U5 m c (Proc.devRef .tc b) = U4 m c (Proc.devRef .tc b) :=
  region_keep (dat2 (atTc (U4 m)) c) launch2.win.arr_inj (U4 m c) (fun _ => rfl) b h
abbrev U6 (c : Dev nD) : Valuation τ sig (Elt F) := StableHlo.after hostOps3 (U5 m c)
theorem U6_keep (c : Dev nD) (r : Ref sig .tc) (h : r ∉ hostOps3_W) : U6 m c r = U5 m c r :=
  StableHlo.after_of_writes_sub hostOps3 _ hostOps3_writes h
def U7 (c : Dev nD) : Valuation τ sig (Elt F) :=
  Pipeline.withArrays spec3 c (U6 m c) fun w => (dat3 (atTc (U6 m)) c).arrAt w cfg3.N
theorem U7_arr (c : Dev nD) (w : Fin cfg3.W) :
    U7 m c (Proc.devRef .tc (Pipeline.arrRef spec3 w)) = (dat3 (atTc (U6 m)) c).arrAt w cfg3.N :=
  Pipeline.withArrays_arr spec3 launch3.win.arr_inj c _ _ w
theorem U7_keep (c : Dev nD) (b : Ref sig .tc) (h : ∀ w : Fin cfg3.W, (cfg3.win w).isOut = true → Pipeline.arrRef spec3 w ≠ b) :
    U7 m c (Proc.devRef .tc b) = U6 m c (Proc.devRef .tc b) :=
  region_keep (dat3 (atTc (U6 m)) c) launch3.win.arr_inj (U6 m c) (fun _ => rfl) b h
def U8 (c : Dev nD) : Valuation τ sig (Elt F) :=
  Pipeline.withArrays spec4 c (U7 m c) fun w => (dat4 (atTc (U7 m)) c).arrAt w cfg4.N
theorem U8_arr (c : Dev nD) (w : Fin cfg4.W) :
    U8 m c (Proc.devRef .tc (Pipeline.arrRef spec4 w)) = (dat4 (atTc (U7 m)) c).arrAt w cfg4.N :=
  Pipeline.withArrays_arr spec4 launch4.win.arr_inj c _ _ w
theorem U8_keep (c : Dev nD) (b : Ref sig .tc) (h : ∀ w : Fin cfg4.W, (cfg4.win w).isOut = true → Pipeline.arrRef spec4 w ≠ b) :
    U8 m c (Proc.devRef .tc b) = U7 m c (Proc.devRef .tc b) :=
  region_keep (dat4 (atTc (U7 m)) c) launch4.win.arr_inj (U7 m c) (fun _ => rfl) b h
abbrev U9 (c : Dev nD) : Valuation τ sig (Elt F) := StableHlo.after hostOps5 (U8 m c)
theorem U9_keep (c : Dev nD) (r : Ref sig .tc) (h : r ∉ hostOps5_W) : U9 m c r = U8 m c r :=
  StableHlo.after_of_writes_sub hostOps5 _ hostOps5_writes h
def U10 (c : Dev nD) : Valuation τ sig (Elt F) :=
  Pipeline.withArrays spec5 c (U9 m c) fun w => (dat5 (atTc (U9 m)) c).arrAt w cfg5.N
theorem U10_arr (c : Dev nD) (w : Fin cfg5.W) :
    U10 m c (Proc.devRef .tc (Pipeline.arrRef spec5 w)) = (dat5 (atTc (U9 m)) c).arrAt w cfg5.N :=
  Pipeline.withArrays_arr spec5 launch5.win.arr_inj c _ _ w
theorem U10_keep (c : Dev nD) (b : Ref sig .tc) (h : ∀ w : Fin cfg5.W, (cfg5.win w).isOut = true → Pipeline.arrRef spec5 w ≠ b) :
    U10 m c (Proc.devRef .tc b) = U9 m c (Proc.devRef .tc b) :=
  region_keep (dat5 (atTc (U9 m)) c) launch5.win.arr_inj (U9 m c) (fun _ => rfl) b h
abbrev U11 (c : Dev nD) : Valuation τ sig (Elt F) := StableHlo.after hostOps6 (U10 m c)
theorem U11_keep (c : Dev nD) (r : Ref sig .tc) (h : r ∉ hostOps6_W) : U11 m c r = U10 m c r :=
  StableHlo.after_of_writes_sub hostOps6 _ hostOps6_writes h
def U12 (c : Dev nD) : Valuation τ sig (Elt F) :=
  Pipeline.withArrays spec6 c (U11 m c) fun w => (dat6 (atTc (U11 m)) c).arrAt w cfg6.N
theorem U12_arr (c : Dev nD) (w : Fin cfg6.W) :
    U12 m c (Proc.devRef .tc (Pipeline.arrRef spec6 w)) = (dat6 (atTc (U11 m)) c).arrAt w cfg6.N :=
  Pipeline.withArrays_arr spec6 launch6.win.arr_inj c _ _ w
theorem U12_keep (c : Dev nD) (b : Ref sig .tc) (h : ∀ w : Fin cfg6.W, (cfg6.win w).isOut = true → Pipeline.arrRef spec6 w ≠ b) :
    U12 m c (Proc.devRef .tc b) = U11 m c (Proc.devRef .tc b) :=
  region_keep (dat6 (atTc (U11 m)) c) launch6.win.arr_inj (U11 m c) (fun _ => rfl) b h
abbrev U13 (c : Dev nD) : Valuation τ sig (Elt F) := StableHlo.after hostOps7 (U12 m c)
theorem U13_keep (c : Dev nD) (r : Ref sig .tc) (h : r ∉ hostOps7_W) : U13 m c r = U12 m c r :=
  StableHlo.after_of_writes_sub hostOps7 _ hostOps7_writes h

/-- No item of @main writes `b`: no host stretch lists it among its results, and it is no region's output array. -/
abbrev Untouched (b : Ref sig .tc) : Prop :=
  b ∉ hostOps0_W ∧ (∀ w : Fin cfg0.W, (cfg0.win w).isOut = true → Pipeline.arrRef spec0 w ≠ b) ∧ b ∉ hostOps1_W ∧ (∀ w : Fin cfg1.W, (cfg1.win w).isOut = true → Pipeline.arrRef spec1 w ≠ b) ∧ (∀ w : Fin cfg2.W, (cfg2.win w).isOut = true → Pipeline.arrRef spec2 w ≠ b) ∧ b ∉ hostOps3_W ∧ (∀ w : Fin cfg3.W, (cfg3.win w).isOut = true → Pipeline.arrRef spec3 w ≠ b) ∧ (∀ w : Fin cfg4.W, (cfg4.win w).isOut = true → Pipeline.arrRef spec4 w ≠ b) ∧ b ∉ hostOps5_W ∧ (∀ w : Fin cfg5.W, (cfg5.win w).isOut = true → Pipeline.arrRef spec5 w ≠ b) ∧ b ∉ hostOps6_W ∧ (∀ w : Fin cfg6.W, (cfg6.win w).isOut = true → Pipeline.arrRef spec6 w ≠ b) ∧ b ∉ hostOps7_W

/-- A buffer no item writes holds at the return what it held at launch. -/
theorem U13_of_untouched (c : Dev nD) (b : Ref sig .tc) (h : Untouched b) : U13 m c b = m ((c : Thread nD τ).loc b) := by
  obtain ⟨h1, h2, h3, h4, h5, h6, h7, h8, h9, h10, h11, h12, h13⟩ := h
  exact (U13_keep m c b h13).trans <| (U12_keep m c b h12).trans <| (U11_keep m c b h11).trans <| (U10_keep m c b h10).trans <| (U9_keep m c b h9).trans <| (U8_keep m c b h8).trans <| (U7_keep m c b h7).trans <| (U6_keep m c b h6).trans <| (U5_keep m c b h5).trans <| (U4_keep m c b h4).trans <| (U3_keep m c b h3).trans <| (U2_keep m c b h2).trans <| (U1_keep m c b h1)

def pdats : (p : Fin 7) → (c : Dev nD) → Dat τ (Elt F) Unit ℕ (Pipeline.UD sig nD τ) ℕ (Pipeline.pin (pcfgs (F := F)) adm p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U7 m)) c
  | ⟨5, _⟩ => fun c => dat5 (atTc (U9 m)) c
  | ⟨6, _⟩ => fun c => dat6 (atTc (U11 m)) c

end Cert.KernelIdeal.Hand

end
-- ==== Proof.KI.Run.lean ====
import proofs.«419905_j28260884807710_1_alg».proof.Proof.Gen.KernelIdeal.Launch
import proofs.«419905_j28260884807710_1_alg».proof.Proof.Gen.KernelIdeal.Skeleton
import proofs.«419905_j28260884807710_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«419905_j28260884807710_1_alg».proof.Proof.KI.Fold
import proofs.«419905_j28260884807710_1_alg».proof.Proof.LibClassARegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev ride (c : Dev nD) : sProp 𝕄 := Pipeline.ClassA.rides (U' := Pipeline.UD sig nD τ) c

theorem noTables (p : Fin 7) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (atTc (U1 m)) c) (fun _ _ => rfl) (fun _ _ => rfl) (fun _ _ => rfl)
    (fun _ => .rfl) (fun _ => .rfl) (noTables 0)
    (U1 m) (U2 m) (fun _ _ => rfl) (fun c w => (U2_arr m c w).symm)
    (fun c => region_rest spec0 c _ _)

def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (atTc (U3 m)) c) (fun _ _ => rfl) (fun _ _ => rfl) (fun _ _ => rfl)
    (fun _ => .rfl) (fun _ => .rfl) (noTables 1)
    (U3 m) (U4 m) (fun _ _ => rfl) (fun c w => (U4_arr m c w).symm)
    (fun c => region_rest spec1 c _ _)

def reg2 : Pipeline.RegionSeg (pcfgs (F := F)) adm (pdats m) () defs₀ 𝒱₀ L lv 2 :=
  Pipeline.ClassA.region (pcfgs (F := F)) adm (pdats m) defs₀ 𝒱₀ L lv 2 launch2.toP
    (fun c => body_obligation2 (atTc (U4 m)) c) (fun _ _ => rfl) (fun _ _ => rfl) (fun _ _ => rfl)
    (fun _ => .rfl) (fun _ => .rfl) (noTables 2)
    (U4 m) (U5 m) (fun _ _ => rfl) (fun c w => (U5_arr m c w).symm)
    (fun c => region_rest spec2 c _ _)

def reg3 : Pipeline.RegionSeg (pcfgs (F := F)) adm (pdats m) () defs₀ 𝒱₀ L lv 3 :=
  Pipeline.ClassA.region (pcfgs (F := F)) adm (pdats m) defs₀ 𝒱₀ L lv 3 launch3.toP
    (fun c => body_obligation3 (atTc (U6 m)) c) (fun _ _ => rfl) (fun _ _ => rfl) (fun _ _ => rfl)
    (fun _ => .rfl) (fun _ => .rfl) (noTables 3)
    (U6 m) (U7 m) (fun _ _ => rfl) (fun c w => (U7_arr m c w).symm)
    (fun c => region_rest spec3 c _ _)

def reg4 : Pipeline.RegionSeg (pcfgs (F := F)) adm (pdats m) () defs₀ 𝒱₀ L lv 4 :=
  Pipeline.ClassA.region (pcfgs (F := F)) adm (pdats m) defs₀ 𝒱₀ L lv 4 launch4.toP
    (fun c => body_obligation4 (atTc (U7 m)) c) (fun _ _ => rfl) (fun _ _ => rfl) (fun _ _ => rfl)
    (fun _ => .rfl) (fun _ => .rfl) (noTables 4)
    (U7 m) (U8 m) (fun _ _ => rfl) (fun c w => (U8_arr m c w).symm)
    (fun c => region_rest spec4 c _ _)

def reg5 : Pipeline.RegionSeg (pcfgs (F := F)) adm (pdats m) () defs₀ 𝒱₀ L lv 5 :=
  Pipeline.ClassA.region (pcfgs (F := F)) adm (pdats m) defs₀ 𝒱₀ L lv 5 launch5.toP
    (fun c => body_obligation5 (atTc (U9 m)) c) (fun _ _ => rfl) (fun _ _ => rfl) (fun _ _ => rfl)
    (fun _ => .rfl) (fun _ => .rfl) (noTables 5)
    (U9 m) (U10 m) (fun _ _ => rfl) (fun c w => (U10_arr m c w).symm)
    (fun c => region_rest spec5 c _ _)

def reg6 : Pipeline.RegionSeg (pcfgs (F := F)) adm (pdats m) () defs₀ 𝒱₀ L lv 6 :=
  Pipeline.ClassA.region (pcfgs (F := F)) adm (pdats m) defs₀ 𝒱₀ L lv 6 launch6.toP
    (fun c => body_obligation6 (atTc (U11 m)) c) (fun _ _ => rfl) (fun _ _ => rfl) (fun _ _ => rfl)
    (fun c => hin6 (atTc (U11 m)) c) (fun c => hout6 (atTc (U11 m)) c) (noTables 6)
    (U11 m) (U12 m) (fun _ _ => rfl) (fun c w => (U12_arr m c w).symm)
    (fun c => region_rest spec6 c _ _)

/-- A stretch of host operations as a segment, run from the valuation `X`. -/
abbrev hseg (ops : List (HloOp τ sig (Elt F))) (hs : ops.Forall fun op => op.bufs ⊆ StableHlo.tcRefs τ sig)
    (hf : ops.Forall fun op => op.fresh = ∅) (X : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hs) op h))
    (fun op h => (List.forall_iff_forall_mem.mp hf) op h) X ride

abbrev segs : List (Pipeline.Seg (pcfgs (F := F)) adm (pdats m) () defs₀ 𝒱₀ L lv) :=
  [.host (hseg hostOps0 hostOps0_sub hostOps0_fresh (U0 m)), .region (reg0 m), .host (hseg hostOps1 hostOps1_sub hostOps1_fresh (U2 m)), .region (reg1 m), .region (reg2 m), .host (hseg hostOps3 hostOps3_sub hostOps3_fresh (U5 m)), .region (reg3 m),
   .region (reg4 m), .host (hseg hostOps5 hostOps5_sub hostOps5_fresh (U8 m)), .region (reg5 m), .host (hseg hostOps6 hostOps6_sub hostOps6_fresh (U10 m)), .region (reg6 m), .host (hseg hostOps7 hostOps7_sub hostOps7_fresh (U12 m))]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (U13 m c) ∗ ∃ r, prngReg c r)

set_option backward.isDefEq.respectTransparency.types false in
/-- Every weakly fair execution terminates without a fault, and every final memory holds every unscoped buffer at the fold's last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U13 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ ride c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (U13 m c) ∗ Pipeline.ClassA.rides (U' := Pipeline.UD sig nD τ) c)
          ⊢ iprop(Tlast m c ∗ ∃ W, owes (c : Thread nD τ) (0 : CellTallies nD τ sig Unit) W)
        unfold Pipeline.ClassA.rides
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      unfold ride Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      iintro ⟨⟨Hh, -⟩, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

/-- A buffer no item writes is read off the final memory with its launch contents. -/
theorem arg_kept (μ : (ℓ : Loc nD τ sig) → Buf (Elt F) ℓ) (c : Dev nD)
    (h : ∀ b ∈ Pipeline.ucRefs τ sig, μ (((c : Thread nD τ)).1, b) = U13 m c b) (b : Ref sig .tc)
    (hb : ¬ (Proc.devRef .tc b : DevRef τ sig).isScoped ∧ Untouched b) :
    μ ((c.tc : Thread nD τ).loc b) = m ((c.tc : Thread nD τ).loc b) :=
  (h _ (mem_uc b hb.1)).trans (U13_of_untouched m c b hb.2)

end Cert.KernelIdeal.Hand

end
-- ==== Proof.KI.Value0.lean ====
import proofs.«419905_j28260884807710_1_alg».proof.Proof.KI.Region0
import proofs.«419905_j28260884807710_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

theorem origin2 : (![0, 0] : Fin 2 → Nat) = fun _ => 0 := funext fun a => by fin_cases a <;> rfl

abbrev xAt0 (r : Fin 5000) (k : Fin 22) : S5000x22.Idx := fun a => match a with
  | ⟨0, _⟩ => ⟨r.val, r.isLt⟩
  | ⟨1, _⟩ => ⟨k.val, k.isLt⟩
abbrev wAt0 (k : Fin 22) (j : Fin 64) : S22x64.Idx := fun a => match a with
  | ⟨0, _⟩ => ⟨k.val, k.isLt⟩
  | ⟨1, _⟩ => ⟨j.val, j.isLt⟩
abbrev xxAt0 (r : Fin 100000) (k : Fin 22) : S100000x22.Idx := fun a => match a with
  | ⟨0, _⟩ => ⟨r.val, r.isLt⟩
  | ⟨1, _⟩ => ⟨k.val, k.isLt⟩

theorem kl0_0 (i : S5000x64.Idx) (q : dot_S5000x22_S22x64_S5000x64_1_0_0_1_n_n.contr.Idx) : (dot_S5000x22_S22x64_S5000x64_1_0_0_1_n_n.lhsIdx i q 0).val = (i 0).val := by
  unfold DotDims.lhsIdx
  rw [dif_neg (show ¬(0 : Fin S5000x22.rank) ∈ dot_S5000x22_S22x64_S5000x64_1_0_0_1_n_n.lhsBatch by decide), dif_pos (show (0 : Fin S5000x22.rank) ∈ dot_S5000x22_S22x64_S5000x64_1_0_0_1_n_n.lhsNonContracting by decide)]
  rfl
theorem kl0_1 (i : S5000x64.Idx) (q : dot_S5000x22_S22x64_S5000x64_1_0_0_1_n_n.contr.Idx) : (dot_S5000x22_S22x64_S5000x64_1_0_0_1_n_n.lhsIdx i q 1).val = (q ⟨0, by decide⟩).val :=
  dot_S5000x22_S22x64_S5000x64_1_0_0_1_n_n.lhsIdx_val_of_single rfl i q
theorem kr0_0 (i : S5000x64.Idx) (q : dot_S5000x22_S22x64_S5000x64_1_0_0_1_n_n.contr.Idx) : (dot_S5000x22_S22x64_S5000x64_1_0_0_1_n_n.rhsIdx i q 0).val = (q ⟨0, by decide⟩).val :=
  dot_S5000x22_S22x64_S5000x64_1_0_0_1_n_n.rhsIdx_val_of_single rfl i q
theorem kr0_1 (i : S5000x64.Idx) (q : dot_S5000x22_S22x64_S5000x64_1_0_0_1_n_n.contr.Idx) : (dot_S5000x22_S22x64_S5000x64_1_0_0_1_n_n.rhsIdx i q 1).val = (i 1).val := by
  unfold DotDims.rhsIdx
  rw [dif_neg (show ¬(1 : Fin S22x64.rank) ∈ dot_S5000x22_S22x64_S5000x64_1_0_0_1_n_n.rhsBatch by decide), dif_pos (show (1 : Fin S22x64.rank) ∈ dot_S5000x22_S22x64_S5000x64_1_0_0_1_n_n.rhsNonContracting by decide)]
  rfl

theorem prod0_apply (x : Vec Ideal S5000x22 .f32) (wt : Vec Ideal S22x64 .f32) (y : S5000x64.Idx) :
    prod0 (F := Ideal) x wt y = ∑ k : Fin 22, x (xAt0 (y 0) k) * wt (wAt0 k (y 1)) := by
  unfold prod0
  rw [View.canon_unit_zero origin2]
  simp only [View.ld_unit_zero (S := S5000x22) origin2, View.ld_unit_zero (S := S22x64) origin2]
  unfold k0_pay1
  refine (Ideal.matmul_constant_zero_apply dot_S5000x22_S22x64_S5000x64_1_0_0_1_n_n none _ _ y).trans ?_
  rw [← Equiv.sum_comp (ValueIdx.contrEquiv1 dot_S5000x22_S22x64_S5000x64_1_0_0_1_n_n 22 rfl rfl).symm]
  refine Finset.sum_congr rfl fun k _ => ?_
  have hk := ValueIdx.contrEquiv1_symm_val dot_S5000x22_S22x64_S5000x64_1_0_0_1_n_n 22 rfl rfl k
  have el : dot_S5000x22_S22x64_S5000x64_1_0_0_1_n_n.lhsIdx y ((ValueIdx.contrEquiv1 dot_S5000x22_S22x64_S5000x64_1_0_0_1_n_n 22 rfl rfl).symm k) = xAt0 (y 0) k := funext fun a => Fin.ext (by
    match a with
    | ⟨0, _⟩ => exact kl0_0 _ _
    | ⟨1, _⟩ => exact (kl0_1 _ _).trans hk)
  have er : dot_S5000x22_S22x64_S5000x64_1_0_0_1_n_n.rhsIdx y ((ValueIdx.contrEquiv1 dot_S5000x22_S22x64_S5000x64_1_0_0_1_n_n 22 rfl rfl).symm k) = wAt0 k (y 1) := funext fun a => Fin.ext (by
    match a with
    | ⟨0, _⟩ => exact (kr0_0 _ _).trans hk
    | ⟨1, _⟩ => exact kr0_1 _ _)
  rw [el, er]
  rfl

theorem rl0_0 (i : S100000x64.Idx) (q : Cert.ReferenceIdeal.dot_S100000x22_S22x64_S100000x64_1_0_0_1_n_n.contr.Idx) : (Cert.ReferenceIdeal.dot_S100000x22_S22x64_S100000x64_1_0_0_1_n_n.lhsIdx i q 0).val = (i 0).val := by
  unfold DotDims.lhsIdx
  rw [dif_neg (show ¬(0 : Fin Cert.ReferenceIdeal.S100000x22.rank) ∈ Cert.ReferenceIdeal.dot_S100000x22_S22x64_S100000x64_1_0_0_1_n_n.lhsBatch by decide), dif_pos (show (0 : Fin Cert.ReferenceIdeal.S100000x22.rank) ∈ Cert.ReferenceIdeal.dot_S100000x22_S22x64_S100000x64_1_0_0_1_n_n.lhsNonContracting by decide)]
  rfl
theorem rl0_1 (i : S100000x64.Idx) (q : Cert.ReferenceIdeal.dot_S100000x22_S22x64_S100000x64_1_0_0_1_n_n.contr.Idx) : (Cert.ReferenceIdeal.dot_S100000x22_S22x64_S100000x64_1_0_0_1_n_n.lhsIdx i q 1).val = (q ⟨0, by decide⟩).val :=
  Cert.ReferenceIdeal.dot_S100000x22_S22x64_S100000x64_1_0_0_1_n_n.lhsIdx_val_of_single rfl i q
theorem rr0_0 (i : S100000x64.Idx) (q : Cert.ReferenceIdeal.dot_S100000x22_S22x64_S100000x64_1_0_0_1_n_n.contr.Idx) : (Cert.ReferenceIdeal.dot_S100000x22_S22x64_S100000x64_1_0_0_1_n_n.rhsIdx i q 0).val = (q ⟨0, by decide⟩).val :=
  Cert.ReferenceIdeal.dot_S100000x22_S22x64_S100000x64_1_0_0_1_n_n.rhsIdx_val_of_single rfl i q
theorem rr0_1 (i : S100000x64.Idx) (q : Cert.ReferenceIdeal.dot_S100000x22_S22x64_S100000x64_1_0_0_1_n_n.contr.Idx) : (Cert.ReferenceIdeal.dot_S100000x22_S22x64_S100000x64_1_0_0_1_n_n.rhsIdx i q 1).val = (i 1).val := by
  unfold DotDims.rhsIdx
  rw [dif_neg (show ¬(1 : Fin Cert.ReferenceIdeal.S22x64.rank) ∈ Cert.ReferenceIdeal.dot_S100000x22_S22x64_S100000x64_1_0_0_1_n_n.rhsBatch by decide), dif_pos (show (1 : Fin Cert.ReferenceIdeal.S22x64.rank) ∈ Cert.ReferenceIdeal.dot_S100000x22_S22x64_S100000x64_1_0_0_1_n_n.rhsNonContracting by decide)]
  rfl

abbrev whole0 (X : FVec Ideal S100000x22 .f32) (Wt : FVec Ideal S22x64 .f32) : FVec Ideal S100000x64 .f32 :=
  Host.dotGeneral (F := Ideal) Cert.ReferenceIdeal.dot_S100000x22_S22x64_S100000x64_1_0_0_1_n_n none X Wt

theorem whole0_apply (X : FVec Ideal S100000x22 .f32) (Wt : FVec Ideal S22x64 .f32) (i : S100000x64.Idx) :
    whole0 X Wt i = ∑ k : Fin 22, X (xxAt0 (i 0) k) * Wt (wAt0 k (i 1)) := by
  unfold whole0
  simp only [Host.dotGeneral]
  rw [Ideal.dotGeneral_apply, ← Equiv.sum_comp (ValueIdx.contrEquiv1 Cert.ReferenceIdeal.dot_S100000x22_S22x64_S100000x64_1_0_0_1_n_n 22 rfl rfl).symm]
  refine Finset.sum_congr rfl fun k _ => ?_
  have hk := ValueIdx.contrEquiv1_symm_val Cert.ReferenceIdeal.dot_S100000x22_S22x64_S100000x64_1_0_0_1_n_n 22 rfl rfl k
  have el : Cert.ReferenceIdeal.dot_S100000x22_S22x64_S100000x64_1_0_0_1_n_n.lhsIdx i ((ValueIdx.contrEquiv1 Cert.ReferenceIdeal.dot_S100000x22_S22x64_S100000x64_1_0_0_1_n_n 22 rfl rfl).symm k) = xxAt0 (i 0) k := funext fun a => Fin.ext (by
    match a with
    | ⟨0, _⟩ => exact rl0_0 _ _
    | ⟨1, _⟩ => exact (rl0_1 _ _).trans hk)
  have er : Cert.ReferenceIdeal.dot_S100000x22_S22x64_S100000x64_1_0_0_1_n_n.rhsIdx i ((ValueIdx.contrEquiv1 Cert.ReferenceIdeal.dot_S100000x22_S22x64_S100000x64_1_0_0_1_n_n 22 rfl rfl).symm k) = wAt0 k (i 1) := funext fun a => Fin.ext (by
    match a with
    | ⟨0, _⟩ => exact (rr0_0 _ _).trans hk
    | ⟨1, _⟩ => exact rr0_1 _ _)
  rw [el, er]

variable (V : (c : Dev nD) → (b : Ref sig .tc) → Buf (Elt Ideal) ((c : Thread nD τ).loc b))

abbrev actArr0 (c : Dev nD) : FVec Ideal S100000x22 .f32 := V c main_arg0
abbrev wgtArr0 (c : Dev nD) : FVec Ideal S22x64 .f32 := V c main_arg3

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0 (c : Dev nD) (t : Fin cfg0.N) :
    (dat0 V c).flushed 2 t = ((cfg0.win 2).blk t).view.read (Elt Ideal) (whole0 (actArr0 V c) (wgtArr0 V c)) := by
  show (cfg0.win 2).cut (grid0.coords t) ((dat0 V c).after 2 t) = _
  rw [after0_2]
  obtain ⟨e0, e1, e2, e3, e4, e5⟩ := idx0 t
  funext y
  refine (prod0_apply _ _ y).trans ?_
  show _ = whole0 (actArr0 V c) (wgtArr0 V c) (((cfg0.win 2).blk t).view.emb y)
  rw [whole0_apply]
  refine Finset.sum_congr rfl fun k _ => ?_
  show actArr0 V c (((cfg0.win 0).blk t).view.emb (xAt0 (y 0) k)) * wgtArr0 V c (((cfg0.win 1).blk t).view.emb (wAt0 k (y 1))) = _
  have hx : ((cfg0.win 0).blk t).view.emb (xAt0 (y 0) k) = xxAt0 ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 22 + 1 * k.val = k.val; omega
  have hw : ((cfg0.win 1).blk t).view.emb (wAt0 k (y 1)) = wAt0 k ((((cfg0.win 2).blk t).view.emb y) 1) := by
    funext a; apply Fin.ext
    match a with
    | ⟨0, _⟩ => show win0_1.index t (0 : Fin 2) * 22 + 1 * k.val = k.val; omega
    | ⟨1, _⟩ => show win0_1.index t (1 : Fin 2) * 64 + 1 * (y 1).val = win0_2.index t (1 : Fin 2) * 64 + 1 * (y 1).val; omega
  rw [hx, hw]

theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by omega⟩, flush0_2 _, ?_⟩
  rw [mem_blk0]
  obtain ⟨e0, e1, e2, e3, e4, e5⟩ := idx0 ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 64 ≤ (i 1).val ∧ (i 1).val < win0_2.index _ (1 : Fin 2) * 64 + 64; rw [e5]; omega

/-- The twenty row blocks of products are the rows of one matrix product, and they cover every row. -/
theorem value0 (c : Dev nD) :
    (dat0 V c).arrAt 2 cfg0.N = whole0 (actArr0 V c) (wgtArr0 V c) :=
  (dat0 V c).arrAt_eq_of_cover 2 _ (fun t _ => flushed0 V c t) cover0

end Cert.KernelIdeal.Hand

end
-- ==== Proof.KI.Specs.lean ====
import proofs.«419905_j28260884807710_1_alg».proof.KernelIdeal
import Idealize.ShloMosaic.PureOps.Ideal

noncomputable section

namespace Cert.KernelIdeal.Hand

open Cert.KernelIdeal Idealize.ShloMosaic

abbrev at128 (r : Fin 100000) (j : Fin 128) : S100000x128.Idx := fun a => match a with
  | ⟨0, _⟩ => ⟨r.val, r.isLt⟩
  | ⟨1, _⟩ => ⟨j.val, j.isLt⟩

def bnReluSpec (agg hlin : FVec Ideal S100000x64 .f32) (D : Fin 100000 → Ideal .f32) (B G BE M VV : Fin 64 → Ideal .f32) :
    FVec Ideal S100000x64 .f32 := fun i =>
  FloatOps.maximumf
    (FloatOps.addf
      (FloatOps.mulf
        (FloatOps.mulf
          (FloatOps.subf
            (FloatOps.addf (FloatOps.addf (agg i) (FloatOps.mulf (hlin i) (D ⟨(i 0).val, (i 0).isLt⟩))) (B ⟨(i 1).val, (i 1).isLt⟩))
            (M ⟨(i 1).val, (i 1).isLt⟩))
          (FloatOps.rsqrt (FloatOps.addf (VV ⟨(i 1).val, (i 1).isLt⟩) (FloatOps.ofBits .f32 0x3727C5AC#32))))
        (G ⟨(i 1).val, (i 1).isLt⟩))
      (BE ⟨(i 1).val, (i 1).isLt⟩))
    (FloatOps.ofBits .f32 0x00000000#32)

def reluSpec (agg hlin : FVec Ideal S100000x128 .f32) (D : Fin 100000 → Ideal .f32) (B : Fin 128 → Ideal .f32) :
    FVec Ideal S100000x128 .f32 := fun i =>
  FloatOps.maximumf
    (FloatOps.addf (FloatOps.addf (agg i) (FloatOps.mulf (hlin i) (D ⟨(i 0).val, (i 0).isLt⟩))) (B ⟨(i 1).val, (i 1).isLt⟩))
    (FloatOps.ofBits .f32 0x00000000#32)

def poolSumSpec (gid : Fin 100000 → BitVec 32) (H : FVec Ideal S100000x128 .f32) : FVec Ideal S256x128 .f32 := fun i =>
  ∑ n : Fin 100000, if gid n = BitVec.ofNat 32 (i 0).val then H (at128 n ⟨(i 1).val, (i 1).isLt⟩) else (0 : EReal)

def poolCntSpec (gid : Fin 100000 → BitVec 32) (b : Fin 256) : EReal :=
  ∑ n : Fin 100000, if gid n = BitVec.ofNat 32 b.val then (1 : EReal) else 0

end Cert.KernelIdeal.Hand

end
-- ==== Proof.KI.Idx.lean ====
import proofs.«419905_j28260884807710_1_alg».proof.KernelIdeal

noncomputable section

namespace Cert.KernelIdeal.Hand

open Cert.KernelIdeal Idealize.ShloMosaic

abbrev colAt (r : Fin 100000) : S100000x1.Idx := fun a => match a with
  | ⟨0, _⟩ => ⟨r.val, r.isLt⟩
  | ⟨1, _⟩ => ⟨0, Nat.one_pos⟩
abbrev rowAt64 (j : Fin 64) : S1x64.Idx := fun a => match a with
  | ⟨0, _⟩ => ⟨0, Nat.one_pos⟩
  | ⟨1, _⟩ => ⟨j.val, j.isLt⟩
abbrev rowAt128 (j : Fin 128) : S1x128.Idx := fun a => match a with
  | ⟨0, _⟩ => ⟨0, Nat.one_pos⟩
  | ⟨1, _⟩ => ⟨j.val, j.isLt⟩
abbrev col256At (b : Fin 256) : S256x1.Idx := fun a => match a with
  | ⟨0, _⟩ => ⟨b.val, b.isLt⟩
  | ⟨1, _⟩ => ⟨0, Nat.one_pos⟩

abbrev gidRow (t : Fin 20) (y : S5000x1.Idx) : S100000x1.Idx := fun a => match a with
  | ⟨0, _⟩ => ⟨5000 * t.val + (y 0).val, by have h0 : (y 0).val < 5000 := (y 0).isLt; have ht := t.isLt; show 5000 * t.val + (y 0).val < 100000; omega⟩
  | ⟨1, _⟩ => ⟨(y 1).val, (y 1).isLt⟩

abbrev featRow (t : Fin 20) (y : S5000x128.Idx) : S100000x128.Idx := fun a => match a with
  | ⟨0, _⟩ => ⟨5000 * t.val + (y 0).val, by have h0 : (y 0).val < 5000 := (y 0).isLt; have ht := t.isLt; show 5000 * t.val + (y 0).val < 100000; omega⟩
  | ⟨1, _⟩ => ⟨(y 1).val, (y 1).isLt⟩

end Cert.KernelIdeal.Hand

end
-- ==== Proof.KI.Value1.lean ====
import proofs.«419905_j28260884807710_1_alg».proof.Proof.KI.Region1
import proofs.«419905_j28260884807710_1_alg».proof.Proof.KI.Specs
import proofs.«419905_j28260884807710_1_alg».proof.Proof.KI.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

theorem org1 : (![0, 0] : Fin 2 → Nat) = fun _ => 0 := funext fun a => by fin_cases a <;> rfl

abbrev cAt1 (r : Fin 5000) : S5000x1.Idx := fun a => match a with
  | ⟨0, _⟩ => ⟨r.val, r.isLt⟩
  | ⟨1, _⟩ => ⟨0, Nat.one_pos⟩

theorem bcol1 {α : Type} (x : S5000x1.Idx → α) (h : S5000x1.Broadcasts S5000x64) (y : S5000x64.Idx) :
    broadcastTo S5000x64 x h y = x (cAt1 (y 0)) :=
  broadcastTo_apply x h y (cAt1 (y 0)) fun a => by
    match a with
    | ⟨0, _⟩ => rfl
    | ⟨1, _⟩ => rfl

theorem brow1 {α : Type} (x : S1x64.Idx → α) (h : S1x64.Broadcasts S5000x64) (y : S5000x64.Idx) :
    broadcastTo S5000x64 x h y = x (rowAt64 (y 1)) :=
  broadcastTo_apply x h y (rowAt64 (y 1)) fun a => by
    match a with
    | ⟨0, _⟩ => rfl
    | ⟨1, _⟩ => rfl

def bnAt1 (x l dd bb gg ee mu vr : Ideal .f32) : Ideal .f32 :=
  FloatOps.maximumf
    (FloatOps.addf
      (FloatOps.mulf
        (FloatOps.mulf
          (FloatOps.subf (FloatOps.addf (FloatOps.addf x (FloatOps.mulf l dd)) bb) mu)
          (FloatOps.rsqrt (FloatOps.addf vr (FloatOps.ofBits .f32 0x3727C5AC#32))))
        gg)
      ee)
    (FloatOps.ofBits .f32 0x00000000#32)

theorem pay1_apply (a h : Vec Ideal S5000x64 .f32) (d : Vec Ideal S5000x1 .f32) (b mm vv g be : Vec Ideal S1x64 .f32) (y : S5000x64.Idx) :
    k1_pay1 (F := Ideal) a h d b mm vv g be y
      = bnAt1 (a y) (h y) (d (cAt1 (y 0))) (b (rowAt64 (y 1))) (g (rowAt64 (y 1))) (be (rowAt64 (y 1))) (mm (rowAt64 (y 1))) (vv (rowAt64 (y 1))) := by
  unfold k1_pay1
  simp only [shapeCast_self]
  simp only [maximumf, addf, subf, mulf, rsqrt, broadcast]
  simp only [bcol1, brow1]
  rfl

theorem comb1_apply (a h : Vec Ideal S5000x64 .f32) (d : Vec Ideal S5000x1 .f32) (b g be mm vv : Vec Ideal S1x64 .f32) (y : S5000x64.Idx) :
    comb1 (F := Ideal) a h d b g be mm vv y
      = bnAt1 (a y) (h y) (d (cAt1 (y 0))) (b (rowAt64 (y 1))) (g (rowAt64 (y 1))) (be (rowAt64 (y 1))) (mm (rowAt64 (y 1))) (vv (rowAt64 (y 1))) := by
  unfold comb1
  rw [View.canon_unit_zero org1]
  simp only [View.ld_unit_zero (S := S5000x64) org1, View.ld_unit_zero (S := S5000x1) org1, View.ld_unit_zero (S := S1x64) org1]
  exact pay1_apply a h d b mm vv g be y

theorem spec1_apply (A L : FVec Ideal S100000x64 .f32) (Dv : FVec Ideal S100000x1 .f32) (Bv Gv Ev Mv Vv : FVec Ideal S1x64 .f32) (i : S100000x64.Idx) :
    bnReluSpec A L (fun r => Dv (colAt r)) (fun j => Bv (rowAt64 j)) (fun j => Gv (rowAt64 j)) (fun j => Ev (rowAt64 j))
        (fun j => Mv (rowAt64 j)) (fun j => Vv (rowAt64 j)) i
      = bnAt1 (A i) (L i) (Dv (colAt ⟨(i 0).val, (i 0).isLt⟩)) (Bv (rowAt64 ⟨(i 1).val, (i 1).isLt⟩)) (Gv (rowAt64 ⟨(i 1).val, (i 1).isLt⟩))
          (Ev (rowAt64 ⟨(i 1).val, (i 1).isLt⟩)) (Mv (rowAt64 ⟨(i 1).val, (i 1).isLt⟩)) (Vv (rowAt64 ⟨(i 1).val, (i 1).isLt⟩)) := rfl

variable (V : (c : Dev nD) → (b : Ref sig .tc) → Buf (Elt Ideal) ((c : Thread nD τ).loc b))

abbrev agg1 (c : Dev nD) : FVec Ideal S100000x64 .f32 := V c main_v41
abbrev lin1 (c : Dev nD) : FVec Ideal S100000x64 .f32 := V c main_v28
abbrev dinv1 (c : Dev nD) : FVec Ideal S100000x1 .f32 := V c main_v27
abbrev bias1 (c : Dev nD) : FVec Ideal S1x64 .f32 := V c main_v42
abbrev gam1 (c : Dev nD) : FVec Ideal S1x64 .f32 := V c main_v43
abbrev bet1 (c : Dev nD) : FVec Ideal S1x64 .f32 := V c main_v44
abbrev mean1 (c : Dev nD) : FVec Ideal S1x64 .f32 := V c main_v45
abbrev var1 (c : Dev nD) : FVec Ideal S1x64 .f32 := V c main_v46

abbrev whole1 (c : Dev nD) : FVec Ideal S100000x64 .f32 :=
  bnReluSpec (agg1 V c) (lin1 V c) (fun r => dinv1 V c (colAt r)) (fun j => bias1 V c (rowAt64 j)) (fun j => gam1 V c (rowAt64 j))
    (fun j => bet1 V c (rowAt64 j)) (fun j => mean1 V c (rowAt64 j)) (fun j => var1 V c (rowAt64 j))

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem emb1_0 (t : Fin cfg1.N) (y : S5000x64.Idx) :
    ((cfg1.win 0).blk t).view.emb y = ((cfg1.win 8).blk t).view.emb y := by
  obtain ⟨pa, qa, ph, qh, pd, qd, pb, qb, pg, qg, pe, qe, pm, qm, pv, qv, po, qo⟩ := idx1 t
  funext a; apply Fin.ext
  match a with
  | ⟨0, _⟩ => show win1_0.index t (0 : Fin 2) * 5000 + 1 * (y 0).val = win1_8.index t (0 : Fin 2) * 5000 + 1 * (y 0).val; omega
  | ⟨1, _⟩ => show win1_0.index t (1 : Fin 2) * 64 + 1 * (y 1).val = win1_8.index t (1 : Fin 2) * 64 + 1 * (y 1).val; omega

theorem emb1_1 (t : Fin cfg1.N) (y : S5000x64.Idx) :
    ((cfg1.win 1).blk t).view.emb y = ((cfg1.win 8).blk t).view.emb y := by
  obtain ⟨pa, qa, ph, qh, pd, qd, pb, qb, pg, qg, pe, qe, pm, qm, pv, qv, po, qo⟩ := idx1 t
  funext a; apply Fin.ext
  match a with
  | ⟨0, _⟩ => show win1_1.index t (0 : Fin 2) * 5000 + 1 * (y 0).val = win1_8.index t (0 : Fin 2) * 5000 + 1 * (y 0).val; omega
  | ⟨1, _⟩ => show win1_1.index t (1 : Fin 2) * 64 + 1 * (y 1).val = win1_8.index t (1 : Fin 2) * 64 + 1 * (y 1).val; omega

theorem emb1_2 (t : Fin cfg1.N) (y : S5000x64.Idx) :
    ((cfg1.win 2).blk t).view.emb (cAt1 (y 0))
      = colAt ⟨((((cfg1.win 8).blk t).view.emb y) 0).val, ((((cfg1.win 8).blk t).view.emb y) 0).isLt⟩ := by
  obtain ⟨pa, qa, ph, qh, pd, qd, pb, qb, pg, qg, pe, qe, pm, qm, pv, qv, po, qo⟩ := idx1 t
  funext a; apply Fin.ext
  match a with
  | ⟨0, _⟩ => show win1_2.index t (0 : Fin 2) * 5000 + 1 * (y 0).val = win1_8.index t (0 : Fin 2) * 5000 + 1 * (y 0).val; omega
  | ⟨1, _⟩ => show win1_2.index t (1 : Fin 2) * 1 + 1 * 0 = 0; omega

theorem emb1_3 (t : Fin cfg1.N) (y : S5000x64.Idx) :
    ((cfg1.win 3).blk t).view.emb (rowAt64 (y 1))
      = rowAt64 ⟨((((cfg1.win 8).blk t).view.emb y) 1).val, ((((cfg1.win 8).blk t).view.emb y) 1).isLt⟩ := by
  obtain ⟨pa, qa, ph, qh, pd, qd, pb, qb, pg, qg, pe, qe, pm, qm, pv, qv, po, qo⟩ := idx1 t
  funext a; apply Fin.ext
  match a with
  | ⟨0, _⟩ => show win1_3.index t (0 : Fin 2) * 1 + 1 * 0 = 0; omega
  | ⟨1, _⟩ => show win1_3.index t (1 : Fin 2) * 64 + 1 * (y 1).val = win1_8.index t (1 : Fin 2) * 64 + 1 * (y 1).val; omega

theorem emb1_4 (t : Fin cfg1.N) (y : S5000x64.Idx) :
    ((cfg1.win 4).blk t).view.emb (rowAt64 (y 1))
      = rowAt64 ⟨((((cfg1.win 8).blk t).view.emb y) 1).val, ((((cfg1.win 8).blk t).view.emb y) 1).isLt⟩ := by
  obtain ⟨pa, qa, ph, qh, pd, qd, pb, qb, pg, qg, pe, qe, pm, qm, pv, qv, po, qo⟩ := idx1 t
  funext a; apply Fin.ext
  match a with
  | ⟨0, _⟩ => show win1_4.index t (0 : Fin 2) * 1 + 1 * 0 = 0; omega
  | ⟨1, _⟩ => show win1_4.index t (1 : Fin 2) * 64 + 1 * (y 1).val = win1_8.index t (1 : Fin 2) * 64 + 1 * (y 1).val; omega

theorem emb1_5 (t : Fin cfg1.N) (y : S5000x64.Idx) :
    ((cfg1.win 5).blk t).view.emb (rowAt64 (y 1))
      = rowAt64 ⟨((((cfg1.win 8).blk t).view.emb y) 1).val, ((((cfg1.win 8).blk t).view.emb y) 1).isLt⟩ := by
  obtain ⟨pa, qa, ph, qh, pd, qd, pb, qb, pg, qg, pe, qe, pm, qm, pv, qv, po, qo⟩ := idx1 t
  funext a; apply Fin.ext
  match a with
  | ⟨0, _⟩ => show win1_5.index t (0 : Fin 2) * 1 + 1 * 0 = 0; omega
  | ⟨1, _⟩ => show win1_5.index t (1 : Fin 2) * 64 + 1 * (y 1).val = win1_8.index t (1 : Fin 2) * 64 + 1 * (y 1).val; omega

theorem emb1_6 (t : Fin cfg1.N) (y : S5000x64.Idx) :
    ((cfg1.win 6).blk t).view.emb (rowAt64 (y 1))
      = rowAt64 ⟨((((cfg1.win 8).blk t).view.emb y) 1).val, ((((cfg1.win 8).blk t).view.emb y) 1).isLt⟩ := by
  obtain ⟨pa, qa, ph, qh, pd, qd, pb, qb, pg, qg, pe, qe, pm, qm, pv, qv, po, qo⟩ := idx1 t
  funext a; apply Fin.ext
  match a with
  | ⟨0, _⟩ => show win1_6.index t (0 : Fin 2) * 1 + 1 * 0 = 0; omega
  | ⟨1, _⟩ => show win1_6.index t (1 : Fin 2) * 64 + 1 * (y 1).val = win1_8.index t (1 : Fin 2) * 64 + 1 * (y 1).val; omega

theorem emb1_7 (t : Fin cfg1.N) (y : S5000x64.Idx) :
    ((cfg1.win 7).blk t).view.emb (rowAt64 (y 1))
      = rowAt64 ⟨((((cfg1.win 8).blk t).view.emb y) 1).val, ((((cfg1.win 8).blk t).view.emb y) 1).isLt⟩ := by
  obtain ⟨pa, qa, ph, qh, pd, qd, pb, qb, pg, qg, pe, qe, pm, qm, pv, qv, po, qo⟩ := idx1 t
  funext a; apply Fin.ext
  match a with
  | ⟨0, _⟩ => show win1_7.index t (0 : Fin 2) * 1 + 1 * 0 = 0; omega
  | ⟨1, _⟩ => show win1_7.index t (1 : Fin 2) * 64 + 1 * (y 1).val = win1_8.index t (1 : Fin 2) * 64 + 1 * (y 1).val; omega

theorem bnAt1_congr {x x' l l' dd dd' bb bb' gg gg' ee ee' mu mu' vr vr' : Ideal .f32}
    (hx : x = x') (hl : l = l') (hd : dd = dd') (hb : bb = bb') (hg : gg = gg') (he : ee = ee') (hm : mu = mu') (hv : vr = vr') :
    bnAt1 x l dd bb gg ee mu vr = bnAt1 x' l' dd' bb' gg' ee' mu' vr' := by
  subst hx; subst hl; subst hd; subst hb; subst hg; subst he; subst hm; subst hv; rfl

theorem flushed1 (c : Dev nD) (t : Fin cfg1.N) :
    (dat1 V c).flushed 8 t = ((cfg1.win 8).blk t).view.read (Elt Ideal) (whole1 V c) := by
  show (cfg1.win 8).cut (grid1.coords t) ((dat1 V c).after 8 t) = _
  rw [after1_8]
  funext y
  refine (comb1_apply _ _ _ _ _ _ _ _ y).trans ?_
  show _ = whole1 V c (((cfg1.win 8).blk t).view.emb y)
  refine Eq.trans ?_ (spec1_apply (agg1 V c) (lin1 V c) (dinv1 V c) (bias1 V c) (gam1 V c) (bet1 V c) (mean1 V c) (var1 V c) _).symm
  exact bnAt1_congr (congrArg (agg1 V c) (emb1_0 t y)) (congrArg (lin1 V c) (emb1_1 t y)) (congrArg (dinv1 V c) (emb1_2 t y)) (congrArg (bias1 V c) (emb1_3 t y)) (congrArg (gam1 V c) (emb1_4 t y)) (congrArg (bet1 V c) (emb1_5 t y)) (congrArg (mean1 V c) (emb1_6 t y)) (congrArg (var1 V c) (emb1_7 t y))

theorem mem_blk1 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v47).slice (win1_8.rect t)).set ↔ _
  rw [View.set_slice_whole, Rect.mem_set_unit]
  exact Iff.rfl

theorem cover1 (i : S100000x64.Idx) : ∃ t : Fin cfg1.N, (cfg1.win 8).flush t = true ∧ i ∈ ((cfg1.win 8).blk t).view.set := by
  have hrow : (i 0).val < 100000 := (i 0).isLt
  have hcol : (i 1).val < 64 := (i 1).isLt
  have hN : cfg1.N = 20 := N_1
  refine ⟨⟨(i 0).val / 5000, by omega⟩, flush1_8 _, ?_⟩
  rw [mem_blk1]
  obtain ⟨pa, qa, ph, qh, pd, qd, pb, qb, pg, qg, pe, qe, pm, qm, pv, qv, po, qo⟩ := idx1 ⟨(i 0).val / 5000, by omega⟩
  intro a
  match a with
  | ⟨0, _⟩ => show win1_8.index _ (0 : Fin 2) * 5000 ≤ (i 0).val ∧ (i 0).val < win1_8.index _ (0 : Fin 2) * 5000 + 5000; rw [po]; dsimp only; omega
  | ⟨1, _⟩ => show win1_8.index _ (1 : Fin 2) * 64 ≤ (i 1).val ∧ (i 1).val < win1_8.index _ (1 : Fin 2) * 64 + 64; rw [qo]; omega

/-- Block by block the combine formula is the whole-array formula at the block's rows, and the blocks cover every row. -/
theorem value1 (c : Dev nD) :
    (dat1 V c).arrAt 8 cfg1.N = bnReluSpec (agg1 V c) (lin1 V c) (fun r => dinv1 V c (colAt r)) (fun j => bias1 V c (rowAt64 j))
      (fun j => gam1 V c (rowAt64 j)) (fun j => bet1 V c (rowAt64 j)) (fun j => mean1 V c (rowAt64 j)) (fun j => var1 V c (rowAt64 j)) :=
  (dat1 V c).arrAt_eq_of_cover 8 _ (fun t _ => flushed1 V c t) cover1

end Cert.KernelIdeal.Hand

end
-- ==== Proof.KI.Value2.lean ====
import proofs.«419905_j28260884807710_1_alg».proof.Proof.KI.Region2
import proofs.«419905_j28260884807710_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

theorem origin2_2 : (![0, 0] : Fin 2 → Nat) = fun _ => 0 := funext fun a => by fin_cases a <;> rfl

abbrev xAt2 (r : Fin 5000) (k : Fin 64) : S5000x64.Idx := fun a => match a with
  | ⟨0, _⟩ => ⟨r.val, r.isLt⟩
  | ⟨1, _⟩ => ⟨k.val, k.isLt⟩
abbrev wAt2 (k : Fin 64) (j : Fin 64) : S64x64.Idx := fun a => match a with
  | ⟨0, _⟩ => ⟨k.val, k.isLt⟩
  | ⟨1, _⟩ => ⟨j.val, j.isLt⟩
abbrev xxAt2 (r : Fin 100000) (k : Fin 64) : S100000x64.Idx := fun a => match a with
  | ⟨0, _⟩ => ⟨r.val, r.isLt⟩
  | ⟨1, _⟩ => ⟨k.val, k.isLt⟩

theorem kl2_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem kl2_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem kr2_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem kr2_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem prod2_apply (x : Vec Ideal S5000x64 .f32) (wt : Vec Ideal S64x64 .f32) (y : S5000x64.Idx) :
    prod2 (F := Ideal) x wt y = ∑ k : Fin 64, x (xAt2 (y 0) k) * wt (wAt2 k (y 1)) := by
  unfold prod2
  rw [View.canon_unit_zero origin2_2]
  simp only [View.ld_unit_zero (S := S5000x64) origin2_2, View.ld_unit_zero (S := S64x64) origin2_2]
  unfold k2_pay1
  simp only [shapeCast_self]
  refine (Ideal.matmul_constant_zero_apply dot_S5000x64_S64x64_S5000x64_1_0_0_1_n_n none _ _ y).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx y ((ValueIdx.contrEquiv1 dot_S5000x64_S64x64_S5000x64_1_0_0_1_n_n 64 rfl rfl).symm k) = xAt2 (y 0) k := funext fun a => Fin.ext (by
    match a with
    | ⟨0, _⟩ => exact kl2_0 _ _
    | ⟨1, _⟩ => exact (kl2_1 _ _).trans hk)
  have er : dot_S5000x64_S64x64_S5000x64_1_0_0_1_n_n.rhsIdx y ((ValueIdx.contrEquiv1 dot_S5000x64_S64x64_S5000x64_1_0_0_1_n_n 64 rfl rfl).symm k) = wAt2 k (y 1) := funext fun a => Fin.ext (by
    match a with
    | ⟨0, _⟩ => exact (kr2_0 _ _).trans hk
    | ⟨1, _⟩ => exact kr2_1 _ _)
  rw [el, er]
  rfl

theorem rl2_0 (i : S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem rl2_1 (i : S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rr2_0 (i : S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rr2_1 (i : S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

abbrev whole2 (X : FVec Ideal S100000x64 .f32) (Wt : FVec Ideal S64x64 .f32) : FVec Ideal S100000x64 .f32 :=
  Host.dotGeneral (F := Ideal) Cert.ReferenceIdeal.dot_S100000x64_S64x64_S100000x64_1_0_0_1_n_n none X Wt

theorem whole2_apply (X : FVec Ideal S100000x64 .f32) (Wt : FVec Ideal S64x64 .f32) (i : S100000x64.Idx) :
    whole2 X Wt i = ∑ k : Fin 64, X (xxAt2 (i 0) k) * Wt (wAt2 k (i 1)) := by
  unfold whole2
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = xxAt2 (i 0) k := funext fun a => Fin.ext (by
    match a with
    | ⟨0, _⟩ => exact rl2_0 _ _
    | ⟨1, _⟩ => exact (rl2_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = wAt2 k (i 1) := funext fun a => Fin.ext (by
    match a with
    | ⟨0, _⟩ => exact (rr2_0 _ _).trans hk
    | ⟨1, _⟩ => exact rr2_1 _ _)
  rw [el, er]

variable (V : (c : Dev nD) → (b : Ref sig .tc) → Buf (Elt Ideal) ((c : Thread nD τ).loc b))

abbrev actArr2 (c : Dev nD) : FVec Ideal S100000x64 .f32 := V c main_v47
abbrev wgtArr2 (c : Dev nD) : FVec Ideal S64x64 .f32 := V c main_arg5

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2 (c : Dev nD) (t : Fin cfg2.N) :
    (dat2 V c).flushed 2 t = ((cfg2.win 2).blk t).view.read (Elt Ideal) (whole2 (actArr2 V c) (wgtArr2 V c)) := by
  show (cfg2.win 2).cut (grid2.coords t) ((dat2 V c).after 2 t) = _
  rw [after2_2]
  obtain ⟨e0, e1, e2, e3, e4, e5⟩ := idx2 t
  funext y
  refine (prod2_apply _ _ y).trans ?_
  show _ = whole2 (actArr2 V c) (wgtArr2 V c) (((cfg2.win 2).blk t).view.emb y)
  rw [whole2_apply]
  refine Finset.sum_congr rfl fun k _ => ?_
  show actArr2 V c (((cfg2.win 0).blk t).view.emb (xAt2 (y 0) k)) * wgtArr2 V c (((cfg2.win 1).blk t).view.emb (wAt2 k (y 1))) = _
  have hx : ((cfg2.win 0).blk t).view.emb (xAt2 (y 0) k) = xxAt2 ((((cfg2.win 2).blk t).view.emb y) 0) k := by
    funext a; apply Fin.ext
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 64 + 1 * k.val = k.val; omega
  have hw : ((cfg2.win 1).blk t).view.emb (wAt2 k (y 1)) = wAt2 k ((((cfg2.win 2).blk t).view.emb y) 1) := by
    funext a; apply Fin.ext
    match a with
    | ⟨0, _⟩ => show win2_1.index t (0 : Fin 2) * 64 + 1 * k.val = k.val; omega
    | ⟨1, _⟩ => show win2_1.index t (1 : Fin 2) * 64 + 1 * (y 1).val = win2_2.index t (1 : Fin 2) * 64 + 1 * (y 1).val; omega
  rw [hx, hw]

theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by omega⟩, flush2_2 _, ?_⟩
  rw [mem_blk2]
  obtain ⟨e0, e1, e2, e3, e4, e5⟩ := idx2 ⟨(i 0).val / 5000, by omega⟩
  intro a
  match a with
  | ⟨0, _⟩ => show win2_2.index _ (0 : Fin 2) * 5000 ≤ (i 0).val ∧ (i 0).val < win2_2.index _ (0 : Fin 2) * 5000 + 5000; rw [e4]; dsimp only; omega
  | ⟨1, _⟩ => show win2_2.index _ (1 : Fin 2) * 64 ≤ (i 1).val ∧ (i 1).val < win2_2.index _ (1 : Fin 2) * 64 + 64; rw [e5]; omega

theorem value2 (c : Dev nD) :
    (dat2 V c).arrAt 2 cfg2.N = whole2 (actArr2 V c) (wgtArr2 V c) :=
  (dat2 V c).arrAt_eq_of_cover 2 _ (fun t _ => flushed2 V c t) cover2

end Cert.KernelIdeal.Hand

end
-- ==== Proof.KI.Idx1d.lean ====
import proofs.«419905_j28260884807710_1_alg».proof.KernelIdeal

noncomputable section

namespace Cert.KernelIdeal.Hand

open Cert.KernelIdeal Idealize.ShloMosaic

abbrev nodeAt (r : Fin 100000) : S100000.Idx := fun a => match a with
  | ⟨0, _⟩ => ⟨r.val, r.isLt⟩
abbrev vecAt64 (j : Fin 64) : S64.Idx := fun a => match a with
  | ⟨0, _⟩ => ⟨j.val, j.isLt⟩
abbrev vecAt128 (j : Fin 128) : S128.Idx := fun a => match a with
  | ⟨0, _⟩ => ⟨j.val, j.isLt⟩

end Cert.KernelIdeal.Hand

end
-- ==== Proof.KI.RefStages.lean ====
import proofs.«419905_j28260884807710_1_alg».proof.Proof.Gen.ReferenceIdeal.Read
import proofs.«419905_j28260884807710_1_alg».proof.Proof.KI.Specs
import proofs.«419905_j28260884807710_1_alg».proof.Proof.KI.Idx
import proofs.«419905_j28260884807710_1_alg».proof.Proof.KI.Idx1d
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.Hand

open Cert.KernelIdeal
open Idealize.ShloMosaic Idealize.ShloMosaic.TcCoe
open Idealize.SL Idealize.SL.Sem
open Cert.ReferenceIdeal.Read

variable (x0 : (⟨Cert.ReferenceIdeal.S100000x22, .f32⟩ : BufTy).Contents (Elt Ideal))
  (x1 : (⟨Cert.ReferenceIdeal.S2x1600000, .i32⟩ : BufTy).Contents (Elt Ideal))
  (x2 : (⟨Cert.ReferenceIdeal.S100000, .i32⟩ : BufTy).Contents (Elt Ideal))
  (x3 : (⟨Cert.ReferenceIdeal.S22x64, .f32⟩ : BufTy).Contents (Elt Ideal))
  (x4 : (⟨Cert.ReferenceIdeal.S64, .f32⟩ : BufTy).Contents (Elt Ideal))
  (x5 : (⟨Cert.ReferenceIdeal.S64x64, .f32⟩ : BufTy).Contents (Elt Ideal))
  (x6 : (⟨Cert.ReferenceIdeal.S64, .f32⟩ : BufTy).Contents (Elt Ideal))
  (x7 : (⟨Cert.ReferenceIdeal.S64x128, .f32⟩ : BufTy).Contents (Elt Ideal))
  (x8 : (⟨Cert.ReferenceIdeal.S128, .f32⟩ : BufTy).Contents (Elt Ideal))
  (x9 x10 x11 x12 x13 x14 x15 x16 : (⟨Cert.ReferenceIdeal.S64, .f32⟩ : BufTy).Contents (Elt Ideal))

theorem ref_h1 : val_main_v63 (F := Ideal) x0 x1 x3 x4 x9 x10 x11 x12
    = bnReluSpec (val_main_v40 (F := Ideal) x0 x1 x3) (val_main_v27 (F := Ideal) x0 x3)
        (fun r => val_main_v26 (F := Ideal) x1 (nodeAt r)) (fun j => x4 (vecAt64 j)) (fun j => x9 (vecAt64 j))
        (fun j => x10 (vecAt64 j)) (fun j => x11 (vecAt64 j)) (fun j => x12 (vecAt64 j)) := by
  funext i
  rw [val_main_v63_apply, val_main_v62_apply, val_main_v59_apply, val_main_v56_apply, val_main_v50_apply,
    val_main_v47_apply, val_main_v44_apply, val_main_v43_apply, val_main_v42_apply, val_main_v41_apply,
    val_main_v46_apply, val_main_v45_apply, val_main_v49_apply, val_main_v48_apply, val_main_v55_apply,
    val_main_v54_apply, val_main_v53_apply, val_main_v52_apply, val_main_v51_apply, val_main_cst_8_apply,
    val_main_v58_apply, val_main_v57_apply, val_main_v61_apply, val_main_v60_apply, val_main_call0_v0_apply,
    val_main_call0_cst_apply]
  have eD : idx_main_v41 (idx_main_v42 i) = nodeAt ⟨(i 0).val, (i 0).isLt⟩ :=
    funext fun a => Fin.ext (by match a with | ⟨0, _⟩ => rfl)
  have eB : idx_main_v45 (idx_main_v46 i) = vecAt64 ⟨(i 1).val, (i 1).isLt⟩ :=
    funext fun a => Fin.ext (by match a with | ⟨0, _⟩ => rfl)
  have eM : idx_main_v48 (idx_main_v49 i) = vecAt64 ⟨(i 1).val, (i 1).isLt⟩ :=
    funext fun a => Fin.ext (by match a with | ⟨0, _⟩ => rfl)
  have eV : idx_main_v54 (idx_main_v55 i) = vecAt64 ⟨(i 1).val, (i 1).isLt⟩ :=
    funext fun a => Fin.ext (by match a with | ⟨0, _⟩ => rfl)
  have eG : idx_main_v57 (idx_main_v58 i) = vecAt64 ⟨(i 1).val, (i 1).isLt⟩ :=
    funext fun a => Fin.ext (by match a with | ⟨0, _⟩ => rfl)
  have eE : idx_main_v60 (idx_main_v61 i) = vecAt64 ⟨(i 1).val, (i 1).isLt⟩ :=
    funext fun a => Fin.ext (by match a with | ⟨0, _⟩ => rfl)
  rw [eD, eB, eM, eV, eG, eE]
  unfold bnReluSpec
  rfl

theorem ref_h2 : val_main_v100 (F := Ideal) x0 x1 x3 x4 x5 x6 x9 x10 x11 x12 x13 x14 x15 x16
    = bnReluSpec (val_main_v77 (F := Ideal) x0 x1 x3 x4 x5 x9 x10 x11 x12)
        (val_main_v64 (F := Ideal) x0 x1 x3 x4 x5 x9 x10 x11 x12)
        (fun r => val_main_v26 (F := Ideal) x1 (nodeAt r)) (fun j => x6 (vecAt64 j)) (fun j => x13 (vecAt64 j))
        (fun j => x14 (vecAt64 j)) (fun j => x15 (vecAt64 j)) (fun j => x16 (vecAt64 j)) := by
  funext i
  rw [val_main_v100_apply, val_main_v99_apply, val_main_v96_apply, val_main_v93_apply, val_main_v87_apply,
    val_main_v84_apply, val_main_v81_apply, val_main_v80_apply, val_main_v79_apply, val_main_v78_apply,
    val_main_v83_apply, val_main_v82_apply, val_main_v86_apply, val_main_v85_apply, val_main_v92_apply,
    val_main_v91_apply, val_main_v90_apply, val_main_v89_apply, val_main_v88_apply, val_main_cst_12_apply,
    val_main_v95_apply, val_main_v94_apply, val_main_v98_apply, val_main_v97_apply, val_main_call1_v0_apply,
    val_main_call1_cst_apply]
  have eD : idx_main_v78 (idx_main_v79 i) = nodeAt ⟨(i 0).val, (i 0).isLt⟩ :=
    funext fun a => Fin.ext (by match a with | ⟨0, _⟩ => rfl)
  have eB : idx_main_v82 (idx_main_v83 i) = vecAt64 ⟨(i 1).val, (i 1).isLt⟩ :=
    funext fun a => Fin.ext (by match a with | ⟨0, _⟩ => rfl)
  have eM : idx_main_v85 (idx_main_v86 i) = vecAt64 ⟨(i 1).val, (i 1).isLt⟩ :=
    funext fun a => Fin.ext (by match a with | ⟨0, _⟩ => rfl)
  have eV : idx_main_v91 (idx_main_v92 i) = vecAt64 ⟨(i 1).val, (i 1).isLt⟩ :=
    funext fun a => Fin.ext (by match a with | ⟨0, _⟩ => rfl)
  have eG : idx_main_v94 (idx_main_v95 i) = vecAt64 ⟨(i 1).val, (i 1).isLt⟩ :=
    funext fun a => Fin.ext (by match a with | ⟨0, _⟩ => rfl)
  have eE : idx_main_v97 (idx_main_v98 i) = vecAt64 ⟨(i 1).val, (i 1).isLt⟩ :=
    funext fun a => Fin.ext (by match a with | ⟨0, _⟩ => rfl)
  rw [eD, eB, eM, eV, eG, eE]
  unfold bnReluSpec
  rfl

theorem ref_h3 : val_main_v122 (F := Ideal) x0 x1 x3 x4 x5 x6 x7 x8 x9 x10 x11 x12 x13 x14 x15 x16
    = reluSpec (val_main_v114 (F := Ideal) x0 x1 x3 x4 x5 x6 x7 x9 x10 x11 x12 x13 x14 x15 x16)
        (val_main_v101 (F := Ideal) x0 x1 x3 x4 x5 x6 x7 x9 x10 x11 x12 x13 x14 x15 x16)
        (fun r => val_main_v26 (F := Ideal) x1 (nodeAt r)) (fun j => x8 (vecAt128 j)) := by
  funext i
  rw [val_main_v122_apply, val_main_v121_apply, val_main_v118_apply, val_main_v117_apply, val_main_v116_apply,
    val_main_v115_apply, val_main_v120_apply, val_main_v119_apply, val_main_call2_v0_apply, val_main_call2_cst_apply]
  have eD : idx_main_v115 (idx_main_v116 i) = nodeAt ⟨(i 0).val, (i 0).isLt⟩ :=
    funext fun a => Fin.ext (by match a with | ⟨0, _⟩ => rfl)
  have eB : idx_main_v119 (idx_main_v120 i) = vecAt128 ⟨(i 1).val, (i 1).isLt⟩ :=
    funext fun a => Fin.ext (by match a with | ⟨0, _⟩ => rfl)
  rw [eD, eB]
  unfold reluSpec
  rfl

abbrev graphAt (b : Fin 256) : Cert.ReferenceIdeal.S256.Idx := fun a => match a with
  | ⟨0, _⟩ => ⟨b.val, b.isLt⟩

theorem ref_out_apply (i : Cert.ReferenceIdeal.S256x128.Idx) :
    val_main_v134 (F := Ideal) x0 x1 x2 x3 x4 x5 x6 x7 x8 x9 x10 x11 x12 x13 x14 x15 x16 i
      = FloatOps.hostDivf (F := Ideal) (φ := .f32)
          (val_main_v125 (F := Ideal) x0 x1 x2 x3 x4 x5 x6 x7 x8 x9 x10 x11 x12 x13 x14 x15 x16 i)
          (FloatOps.maximumf (val_main_v129 (F := Ideal) x2 (graphAt ⟨(i 0).val, (i 0).isLt⟩))
            (FloatOps.ofBits .f32 0x3F800000#32)) := by
  rw [val_main_v134_apply, val_main_v133_apply, val_main_v132_apply, val_main_v131_apply, val_main_v130_apply,
    val_main_cst_19_apply]
  have eC : idx_main_v132 (idx_main_v133 i) = graphAt ⟨(i 0).val, (i 0).isLt⟩ :=
    funext fun a => Fin.ext (by match a with | ⟨0, _⟩ => rfl)
  rw [eC]

theorem word_lands_iff (g : BitVec 32) (b : Nat) (hb : b < 256) :
    (0 ≤ g.toInt + (0 : Nat) ∧ g.toInt + (0 : Nat) < (256 : Nat) ∧ (g.toInt + (0 : Nat)).toNat = b) ↔ g = BitVec.ofNat 32 b := by
  rw [BitVec.toInt_eq_toNat_cond]
  constructor
  · rintro ⟨h0, h1, h2⟩
    apply BitVec.eq_of_toNat_eq
    rw [BitVec.toNat_ofNat]
    have := g.isLt
    split at h0 <;> split at h1 <;> split at h2 <;> omega
  · rintro rfl
    rw [BitVec.toNat_ofNat]
    have : b % 2 ^ 32 = b := Nat.mod_eq_of_lt (by omega)
    rw [this]
    split <;> omega

abbrev dCnt := Cert.ReferenceIdeal.scatter_S256_S100000x1_S100000_n_0_0_1

def nodeEquiv : Fin 100000 ≃ Cert.ReferenceIdeal.S100000.Idx where
  toFun n := nodeAt n
  invFun j := ⟨(j 0).val, (j 0).isLt⟩
  left_inv n := rfl
  right_inv j := funext fun a => by match a with | ⟨0, _⟩ => rfl

theorem cnt_start (idx : IVec Cert.ReferenceIdeal.S100000x1 32) (j : Cert.ReferenceIdeal.S100000.Idx) :
    dCnt.start j idx 0 = (idx (colAt ⟨(j 0).val, (j 0).isLt⟩)).toInt := by
  unfold ScatterDims.start
  rw [dif_pos (show (0 : Fin 1) ∈ dCnt.scatterDimsToOperandDims from List.mem_singleton.mpr rfl)]
  have hsi : dCnt.siIdx j ⟨List.idxOf (0 : Fin 1) dCnt.scatterDimsToOperandDims,
      List.idxOf_lt_length_iff.2 (List.mem_singleton.mpr rfl)⟩ = colAt ⟨(j 0).val, (j 0).isLt⟩ := by
    funext b; refine Fin.ext ?_
    match b with
    | ⟨0, _⟩ => rfl
    | ⟨1, _⟩ => rfl
  rw [hsi]

theorem cnt_window (j : Cert.ReferenceIdeal.S100000.Idx) : dCnt.window j 0 = 0 := by
  unfold ScatterDims.window
  rw [dif_neg (show ¬(0 : Fin 1) ∈ dCnt.sKept by decide)]

theorem cnt_lands (idx : IVec Cert.ReferenceIdeal.S100000x1 32) (j : Cert.ReferenceIdeal.S100000.Idx)
    (i : Cert.ReferenceIdeal.S256.Idx) :
    dCnt.resultIdx? j idx = some i ↔ idx (colAt ⟨(j 0).val, (j 0).isLt⟩) = BitVec.ofNat 32 (i 0).val := by
  unfold ScatterDims.resultIdx?
  constructor
  · intro h
    split at h
    · rename_i hr
      have h0 := hr 0
      have hv : (dCnt.start j idx 0 + (dCnt.window j 0 : Nat)).toNat = (i 0).val :=
        congrArg Fin.val (congrFun (Option.some.inj h) 0)
      rw [cnt_start, cnt_window] at h0 hv
      exact (word_lands_iff _ _ (i 0).isLt).mp ⟨h0.1, h0.2, hv⟩
    · cases h
  · intro h
    obtain ⟨h0, h1, h2⟩ := (word_lands_iff _ _ (i 0).isLt).mpr h
    have hr : ∀ a, 0 ≤ dCnt.start j idx a + (dCnt.window j a : Nat)
        ∧ dCnt.start j idx a + (dCnt.window j a : Nat) < (Cert.ReferenceIdeal.S256.size a : Nat) := by
      intro a
      obtain rfl : a = 0 := Subsingleton.elim _ _
      rw [cnt_start, cnt_window]
      exact ⟨h0, h1⟩
    rw [dif_pos hr]
    congr 1
    funext a
    obtain rfl : a = 0 := Subsingleton.elim _ _
    refine Fin.ext ?_
    show (dCnt.start j idx 0 + (dCnt.window j 0 : Nat)).toNat = (i 0).val
    rw [cnt_start, cnt_window]
    exact h2

theorem ref_cnts : val_main_v129 (F := Ideal) x2
    = fun i => poolCntSpec (fun n => x2 (nodeAt n)) ⟨(i 0).val, (i 0).isLt⟩ := by
  funext i
  unfold val_main_v129 Host.scatterAdd
  rw [Ideal.hostScatterAdd_def]
  unfold Ideal.hostScatterAdd
  rw [val_main_v127_apply, val_main_cst_18_apply, Ideal.ofBits_def, Ideal.ofBits_zero_f32, zero_add,
    Finset.filter_congr (fun j _ => cnt_lands (val_main_v128 (F := Ideal) x2) j i), Finset.sum_filter]
  unfold poolCntSpec
  refine (Fintype.sum_equiv nodeEquiv _ _ (fun n => ?_)).symm
  have e : idx_main_v128 (colAt ⟨((nodeEquiv n) 0).val, ((nodeEquiv n) 0).isLt⟩) = nodeAt n :=
    funext fun a => Fin.ext (by match a with | ⟨0, _⟩ => rfl)
  rw [val_main_v128_apply, val_main_v126_apply, val_main_cst_17_apply, Ideal.ofBits_def, Ideal.ofBits_one_f32, e]

abbrev dSum := Cert.ReferenceIdeal.scatter_S256x128_S100000x1_S100000x128_1_0_0_1

theorem sum_start0 (idx : IVec Cert.ReferenceIdeal.S100000x1 32) (j : Cert.ReferenceIdeal.S100000x128.Idx) :
    dSum.start j idx 0 = (idx (colAt ⟨(j 0).val, (j 0).isLt⟩)).toInt := by
  unfold ScatterDims.start
  rw [dif_pos (show (0 : Fin 2) ∈ dSum.scatterDimsToOperandDims from List.mem_singleton.mpr rfl)]
  have hsi : dSum.siIdx j ⟨List.idxOf (0 : Fin 2) dSum.scatterDimsToOperandDims,
      List.idxOf_lt_length_iff.2 (List.mem_singleton.mpr rfl)⟩ = colAt ⟨(j 0).val, (j 0).isLt⟩ := by
    funext b; refine Fin.ext ?_
    match b with
    | ⟨0, _⟩ => rfl
    | ⟨1, _⟩ => rfl
  rw [hsi]

theorem sum_start1 (idx : IVec Cert.ReferenceIdeal.S100000x1 32) (j : Cert.ReferenceIdeal.S100000x128.Idx) :
    dSum.start j idx 1 = 0 := by
  unfold ScatterDims.start
  rw [dif_neg (show ¬(1 : Fin 2) ∈ dSum.scatterDimsToOperandDims by decide)]

theorem sum_window0 (j : Cert.ReferenceIdeal.S100000x128.Idx) : dSum.window j 0 = 0 := by
  unfold ScatterDims.window
  rw [dif_neg (show ¬(0 : Fin 2) ∈ dSum.sKept by decide)]

theorem sum_window1 (j : Cert.ReferenceIdeal.S100000x128.Idx) : dSum.window j 1 = (j 1).val := by
  unfold ScatterDims.window
  rw [dif_pos (show (1 : Fin 2) ∈ dSum.sKept by decide)]
  rfl

theorem sum_lands (idx : IVec Cert.ReferenceIdeal.S100000x1 32) (j : Cert.ReferenceIdeal.S100000x128.Idx)
    (i : Cert.ReferenceIdeal.S256x128.Idx) :
    dSum.resultIdx? j idx = some i
      ↔ (idx (colAt ⟨(j 0).val, (j 0).isLt⟩) = BitVec.ofNat 32 (i 0).val ∧ (j 1).val = (i 1).val) := by
  have hj : (j 1).val < 128 := (j 1).isLt
  unfold ScatterDims.resultIdx?
  constructor
  · intro h
    split at h
    · rename_i hr
      have h0 := hr 0
      have hv0 : (dSum.start j idx 0 + (dSum.window j 0 : Nat)).toNat = (i 0).val :=
        congrArg Fin.val (congrFun (Option.some.inj h) 0)
      have hv1 : (dSum.start j idx 1 + (dSum.window j 1 : Nat)).toNat = (i 1).val :=
        congrArg Fin.val (congrFun (Option.some.inj h) 1)
      rw [sum_start0, sum_window0] at h0 hv0
      rw [sum_start1, sum_window1] at hv1
      exact ⟨(word_lands_iff _ _ (i 0).isLt).mp ⟨h0.1, h0.2, hv0⟩, by omega⟩
    · cases h
  · rintro ⟨hg, hf⟩
    obtain ⟨h0, h1, h2⟩ := (word_lands_iff _ _ (i 0).isLt).mpr hg
    have hr0 : 0 ≤ dSum.start j idx 0 + (dSum.window j 0 : Nat)
        ∧ dSum.start j idx 0 + (dSum.window j 0 : Nat) < (Cert.ReferenceIdeal.S256x128.size 0 : Nat) := by
      rw [sum_start0, sum_window0]
      exact ⟨h0, h1⟩
    have hr1 : 0 ≤ dSum.start j idx 1 + (dSum.window j 1 : Nat)
        ∧ dSum.start j idx 1 + (dSum.window j 1 : Nat) < (Cert.ReferenceIdeal.S256x128.size 1 : Nat) := by
      rw [sum_start1, sum_window1]
      show 0 ≤ (0 : Int) + ((j 1).val : Nat) ∧ (0 : Int) + ((j 1).val : Nat) < ((128 : Nat) : Int)
      omega
    have hr : ∀ a, 0 ≤ dSum.start j idx a + (dSum.window j a : Nat)
        ∧ dSum.start j idx a + (dSum.window j a : Nat) < (Cert.ReferenceIdeal.S256x128.size a : Nat) := by
      intro a
      match a with
      | ⟨0, _⟩ => exact hr0
      | ⟨1, _⟩ => exact hr1
    rw [dif_pos hr]
    refine congrArg some (funext fun a => ?_)
    match a with
    | ⟨0, _⟩ =>
      refine Fin.ext ?_
      show (dSum.start j idx 0 + (dSum.window j 0 : Nat)).toNat = (i 0).val
      rw [sum_start0, sum_window0]
      exact h2
    | ⟨1, _⟩ =>
      refine Fin.ext ?_
      show (dSum.start j idx 1 + (dSum.window j 1 : Nat)).toNat = (i 1).val
      rw [sum_start1, sum_window1]
      omega

def featEquiv : Fin 100000 × Fin 128 ≃ Cert.ReferenceIdeal.S100000x128.Idx where
  toFun p := at128 p.1 p.2
  invFun j := (⟨(j 0).val, (j 0).isLt⟩, ⟨(j 1).val, (j 1).isLt⟩)
  left_inv p := rfl
  right_inv j := funext fun a => by match a with | ⟨0, _⟩ => rfl | ⟨1, _⟩ => rfl

theorem sum_pick (c : Fin 128) (f : Fin 128 → EReal) : (∑ b : Fin 128, if b.val = c.val then f b else 0) = f c := by
  rw [Finset.sum_eq_single c]
  · rw [if_pos rfl]
  · intro b _ hb; rw [if_neg (fun h => hb (Fin.ext h))]
  · intro h; exact absurd (Finset.mem_univ c) h

theorem ref_sums : val_main_v125 (F := Ideal) x0 x1 x2 x3 x4 x5 x6 x7 x8 x9 x10 x11 x12 x13 x14 x15 x16
    = poolSumSpec (fun n => x2 (nodeAt n))
        (val_main_v122 (F := Ideal) x0 x1 x3 x4 x5 x6 x7 x8 x9 x10 x11 x12 x13 x14 x15 x16) := by
  funext i
  unfold val_main_v125 Host.scatterAdd
  rw [Ideal.hostScatterAdd_def]
  unfold Ideal.hostScatterAdd
  generalize val_main_v122 (F := Ideal) x0 x1 x3 x4 x5 x6 x7 x8 x9 x10 x11 x12 x13 x14 x15 x16 = H
  rw [val_main_v123_apply, val_main_cst_16_apply, Ideal.ofBits_def, Ideal.ofBits_zero_f32, zero_add,
    Finset.filter_congr (fun j _ => sum_lands (val_main_v124 (F := Ideal) x2) j i), Finset.sum_filter]
  unfold poolSumSpec
  refine (Fintype.sum_equiv featEquiv _ _ (fun p => rfl)).symm.trans ?_
  rw [Fintype.sum_prod_type]
  refine Finset.sum_congr rfl (fun n _ => ?_)
  have e : val_main_v124 (F := Ideal) x2 (colAt ⟨n.val, n.isLt⟩) = x2 (nodeAt n) := by
    rw [val_main_v124_apply]
    exact congrArg x2 (funext fun a => Fin.ext (by match a with | ⟨0, _⟩ => rfl))
  show (∑ b : Fin 128, if (val_main_v124 (F := Ideal) x2 (colAt ⟨n.val, n.isLt⟩) = BitVec.ofNat 32 (i 0).val
        ∧ b.val = (i 1).val) then H (at128 n b) else 0)
      = if x2 (nodeAt n) = BitVec.ofNat 32 (i 0).val then H (at128 n ⟨(i 1).val, (i 1).isLt⟩) else 0
  rw [e]
  by_cases hg : x2 (nodeAt n) = BitVec.ofNat 32 (i 0).val
  · rw [if_pos hg]
    refine Eq.trans ?_ (sum_pick ⟨(i 1).val, (i 1).isLt⟩ (fun b => H (at128 n b)))
    exact Finset.sum_congr rfl (fun b _ => if_congr (and_iff_right hg) rfl rfl)
  · rw [if_neg hg]
    exact Finset.sum_eq_zero (fun b _ => if_neg (fun h => hg h.1))

end Cert.KernelIdeal.Hand

end
-- ==== Proof.KI.BridgeA.lean ====
import proofs.«419905_j28260884807710_1_alg».proof.Proof.KI.Fold
import proofs.«419905_j28260884807710_1_alg».proof.Proof.KI.Value0
import proofs.«419905_j28260884807710_1_alg».proof.Proof.KI.Value1
import proofs.«419905_j28260884807710_1_alg».proof.Proof.KI.Value2
import proofs.«419905_j28260884807710_1_alg».proof.Proof.KI.RefStages
import proofs.«419905_j28260884807710_1_alg».proof.Proof.KI.Specs
import proofs.«419905_j28260884807710_1_alg».proof.Proof.KI.Idx
import proofs.«419905_j28260884807710_1_alg».proof.Proof.KI.Idx1d
import proofs.«419905_j28260884807710_1_alg».proof.Proof.Gen.ReferenceIdeal.Read
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.StableHlo
open Cert.ReferenceIdeal.Read

variable (m : (ℓ : Loc nD τ sig) → Buf (Elt Ideal) ℓ) (c : Dev nD)

abbrev X0 : FVec Ideal S100000x22 .f32 := m ((c : Thread nD τ).loc main_arg0)
abbrev X1 : IVec S2x1600000 32 := m ((c : Thread nD τ).loc main_arg1)
abbrev X2 : IVec S100000 32 := m ((c : Thread nD τ).loc main_arg2)
abbrev X3 : FVec Ideal S22x64 .f32 := m ((c : Thread nD τ).loc main_arg3)
abbrev X4 : FVec Ideal S64 .f32 := m ((c : Thread nD τ).loc main_arg4)
abbrev X5 : FVec Ideal S64x64 .f32 := m ((c : Thread nD τ).loc main_arg5)
abbrev X6 : FVec Ideal S64 .f32 := m ((c : Thread nD τ).loc main_arg6)
abbrev X7 : FVec Ideal S64x128 .f32 := m ((c : Thread nD τ).loc main_arg7)
abbrev X8 : FVec Ideal S128 .f32 := m ((c : Thread nD τ).loc main_arg8)
abbrev X9 : FVec Ideal S64 .f32 := m ((c : Thread nD τ).loc main_arg9)
abbrev X10 : FVec Ideal S64 .f32 := m ((c : Thread nD τ).loc main_arg10)
abbrev X11 : FVec Ideal S64 .f32 := m ((c : Thread nD τ).loc main_arg11)
abbrev X12 : FVec Ideal S64 .f32 := m ((c : Thread nD τ).loc main_arg12)
abbrev X13 : FVec Ideal S64 .f32 := m ((c : Thread nD τ).loc main_arg13)
abbrev X14 : FVec Ideal S64 .f32 := m ((c : Thread nD τ).loc main_arg14)
abbrev X15 : FVec Ideal S64 .f32 := m ((c : Thread nD τ).loc main_arg15)
abbrev X16 : FVec Ideal S64 .f32 := m ((c : Thread nD τ).loc main_arg16)

theorem st1_src : atTc (U1 m) c main_v1 = val_main_v1 (F := Ideal) (X1 m c) := by
  show StableHlo.after hostOps0 (U0 m c) (Proc.devRef .tc main_v1) = _
  after_results
  unfold val_main_v1 val_main_v0
  rfl

theorem st1_dst : atTc (U1 m) c main_v3 = val_main_v3 (F := Ideal) (X1 m c) := by
  show StableHlo.after hostOps0 (U0 m c) (Proc.devRef .tc main_v3) = _
  after_results
  unfold val_main_v3 val_main_v2
  rfl

theorem st1_norm : atTc (U1 m) c main_v25 = val_main_v25 (F := Ideal) (X1 m c) := by
  show StableHlo.after hostOps0 (U0 m c) (Proc.devRef .tc main_v25) = _
  after_results_simp
  simp only [val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_c, val_main_c_2,
    val_main_c_3, val_main_c_4]
  rfl

theorem st1_dinv : atTc (U1 m) c main_v27
    = shapeCast S100000x1 (val_main_v26 (F := Ideal) (X1 m c)) shapeCasts_S100000_S100000x1 := by
  show StableHlo.after hostOps0 (U0 m c) (Proc.devRef .tc main_v27) = _
  after_results_simp
  simp only [val_main_v26, val_main_v10, val_main_v9, val_main_v8, val_main_v7, val_main_v6, val_main_v5,
    val_main_v4, val_main_v3, val_main_v2, val_main_cst, val_main_cst_0, val_main_cst_1]
  rfl

theorem st2_lin1 : atTc (U2 m) c main_v28 = val_main_v27 (F := Ideal) (X0 m c) (X3 m c) := by
  refine (U2_arr m c 2).trans ((value0 (atTc (U1 m)) c).trans ?_)
  have e0 : actArr0 (atTc (U1 m)) c = X0 m c := U1_keep m c main_arg0 (by decide)
  have e3 : wgtArr0 (atTc (U1 m)) c = X3 m c := U1_keep m c main_arg3 (by decide)
  rw [e0, e3]
  unfold val_main_v27
  rfl

theorem st3_agg1 : atTc (U3 m) c main_v41 = val_main_v40 (F := Ideal) (X0 m c) (X1 m c) (X3 m c) := by
  show StableHlo.after hostOps1 (U2 m c) (Proc.devRef .tc main_v41) = _
  have h28 : U2 m c (Proc.devRef .tc main_v28) = val_main_v27 (F := Ideal) (X0 m c) (X3 m c) := st2_lin1 m c
  have h1 : U2 m c (Proc.devRef .tc main_v1) = val_main_v1 (F := Ideal) (X1 m c) :=
    (U2_keep m c main_v1 (by decide)).trans (st1_src m c)
  have h3 : U2 m c (Proc.devRef .tc main_v3) = val_main_v3 (F := Ideal) (X1 m c) :=
    (U2_keep m c main_v3 (by decide)).trans (st1_dst m c)
  have h25 : U2 m c (Proc.devRef .tc main_v25) = val_main_v25 (F := Ideal) (X1 m c) :=
    (U2_keep m c main_v25 (by decide)).trans (st1_norm m c)
  generalize U2 m c = W at h28 h1 h3 h25 ⊢
  after_results_simp
  rw [h28, h1, h3, h25]
  simp only [val_main_v40, val_main_v39, val_main_v38, val_main_v37, val_main_v36, val_main_v35, val_main_v34,
    val_main_v33, val_main_v32, val_main_v31, val_main_v30, val_main_v29, val_main_v28, val_main_c_5, val_main_c_6,
    val_main_cst_7]
  rfl

theorem arg_at_U2 (r : Ref sig .tc) (h1 : r ∉ hostOps0_W)
    (h2 : ∀ w : Fin cfg0.W, (cfg0.win w).isOut = true → Pipeline.arrRef spec0 w ≠ r) :
    U2 m c (Proc.devRef .tc r) = U0 m c (Proc.devRef .tc r) :=
  (U2_keep m c r h2).trans (U1_keep m c r h1)

theorem st3_rows : atTc (U3 m) c main_v42 = shapeCast S1x64 (X4 m c) shapeCasts_S64_S1x64
    ∧ atTc (U3 m) c main_v43 = shapeCast S1x64 (X9 m c) shapeCasts_S64_S1x64
    ∧ atTc (U3 m) c main_v44 = shapeCast S1x64 (X10 m c) shapeCasts_S64_S1x64
    ∧ atTc (U3 m) c main_v45 = shapeCast S1x64 (X11 m c) shapeCasts_S64_S1x64
    ∧ atTc (U3 m) c main_v46 = shapeCast S1x64 (X12 m c) shapeCasts_S64_S1x64 := by
  have h4 := arg_at_U2 m c main_arg4 (by decide) (by decide)
  have h9 := arg_at_U2 m c main_arg9 (by decide) (by decide)
  have h10 := arg_at_U2 m c main_arg10 (by decide) (by decide)
  have h11 := arg_at_U2 m c main_arg11 (by decide) (by decide)
  have h12 := arg_at_U2 m c main_arg12 (by decide) (by decide)
  refine ⟨?_, ?_, ?_, ?_, ?_⟩
  · show StableHlo.after hostOps1 (U2 m c) (Proc.devRef .tc main_v42) = _
    generalize U2 m c = W at h4 ⊢
    after_results
    rw [h4]
    rfl
  · show StableHlo.after hostOps1 (U2 m c) (Proc.devRef .tc main_v43) = _
    generalize U2 m c = W at h9 ⊢
    after_results
    rw [h9]
    rfl
  · show StableHlo.after hostOps1 (U2 m c) (Proc.devRef .tc main_v44) = _
    generalize U2 m c = W at h10 ⊢
    after_results
    rw [h10]
    rfl
  · show StableHlo.after hostOps1 (U2 m c) (Proc.devRef .tc main_v45) = _
    generalize U2 m c = W at h11 ⊢
    after_results
    rw [h11]
    rfl
  · show StableHlo.after hostOps1 (U2 m c) (Proc.devRef .tc main_v46) = _
    generalize U2 m c = W at h12 ⊢
    after_results
    rw [h12]
    rfl

theorem col_of_vec (v : S100000.Idx → Ideal .f32) (r : Fin 100000) :
    shapeCast S100000x1 v shapeCasts_S100000_S100000x1 (colAt r) = v (nodeAt r) :=
  shapeCast_apply v shapeCasts_S100000_S100000x1 (colAt r) (nodeAt r) (by
    rw [Shape.rowMajor_val_one, Shape.rowMajor_val_two]
    show r.val = r.val * 1 + 0
    omega)

theorem row_of_vec64 (v : S64.Idx → Ideal .f32) (j : Fin 64) :
    shapeCast S1x64 v shapeCasts_S64_S1x64 (rowAt64 j) = v (vecAt64 j) :=
  shapeCast_apply v shapeCasts_S64_S1x64 (rowAt64 j) (vecAt64 j) (by
    rw [Shape.rowMajor_val_one, Shape.rowMajor_val_two]
    show j.val = 0 * 64 + j.val
    omega)

theorem bnReluSpec_congr {a a' l l' : FVec Ideal S100000x64 .f32} {D D' : Fin 100000 → Ideal .f32}
    {B B' G G' E E' M M' W W' : Fin 64 → Ideal .f32}
    (ha : a = a') (hl : l = l') (hD : D = D') (hB : B = B') (hG : G = G') (hE : E = E') (hM : M = M') (hW : W = W') :
    bnReluSpec a l D B G E M W = bnReluSpec a' l' D' B' G' E' M' W' := by
  subst ha hl hD hB hG hE hM hW; rfl

theorem st4_h1 : atTc (U4 m) c main_v47
    = val_main_v63 (F := Ideal) (X0 m c) (X1 m c) (X3 m c) (X4 m c) (X9 m c) (X10 m c) (X11 m c) (X12 m c) := by
  refine (U4_arr m c 8).trans ((value1 (atTc (U3 m)) c).trans ?_)
  obtain ⟨r42, r43, r44, r45, r46⟩ := st3_rows m c
  have eA : agg1 (atTc (U3 m)) c = val_main_v40 (F := Ideal) (X0 m c) (X1 m c) (X3 m c) := st3_agg1 m c
  have eL : lin1 (atTc (U3 m)) c = val_main_v27 (F := Ideal) (X0 m c) (X3 m c) :=
    (U3_keep m c main_v28 (by decide)).trans (st2_lin1 m c)
  have eD : dinv1 (atTc (U3 m)) c
      = shapeCast S100000x1 (val_main_v26 (F := Ideal) (X1 m c)) shapeCasts_S100000_S100000x1 :=
    (U3_keep m c main_v27 (by decide)).trans ((U2_keep m c main_v27 (by decide)).trans (st1_dinv m c))
  have eB : bias1 (atTc (U3 m)) c = shapeCast S1x64 (X4 m c) shapeCasts_S64_S1x64 := r42
  have eG : gam1 (atTc (U3 m)) c = shapeCast S1x64 (X9 m c) shapeCasts_S64_S1x64 := r43
  have eE : bet1 (atTc (U3 m)) c = shapeCast S1x64 (X10 m c) shapeCasts_S64_S1x64 := r44
  have eM : mean1 (atTc (U3 m)) c = shapeCast S1x64 (X11 m c) shapeCasts_S64_S1x64 := r45
  have eV : var1 (atTc (U3 m)) c = shapeCast S1x64 (X12 m c) shapeCasts_S64_S1x64 := r46
  refine (bnReluSpec_congr eA eL
    (funext fun r => (congrFun eD (colAt r)).trans (col_of_vec _ r))
    (funext fun j => (congrFun eB (rowAt64 j)).trans (row_of_vec64 _ j))
    (funext fun j => (congrFun eG (rowAt64 j)).trans (row_of_vec64 _ j))
    (funext fun j => (congrFun eE (rowAt64 j)).trans (row_of_vec64 _ j))
    (funext fun j => (congrFun eM (rowAt64 j)).trans (row_of_vec64 _ j))
    (funext fun j => (congrFun eV (rowAt64 j)).trans (row_of_vec64 _ j))).trans ?_
  exact (ref_h1 (X0 m c) (X1 m c) (X3 m c) (X4 m c) (X9 m c) (X10 m c) (X11 m c) (X12 m c)).symm

theorem st5_lin2 : atTc (U5 m) c main_v48
    = val_main_v64 (F := Ideal) (X0 m c) (X1 m c) (X3 m c) (X4 m c) (X5 m c) (X9 m c) (X10 m c) (X11 m c) (X12 m c) := by
  refine (U5_arr m c 2).trans ((value2 (atTc (U4 m)) c).trans ?_)
  have eX : actArr2 (atTc (U4 m)) c
      = val_main_v63 (F := Ideal) (X0 m c) (X1 m c) (X3 m c) (X4 m c) (X9 m c) (X10 m c) (X11 m c) (X12 m c) := st4_h1 m c
  have eW : wgtArr2 (atTc (U4 m)) c = X5 m c :=
    (U4_keep m c main_arg5 (by decide)).trans
      ((U3_keep m c main_arg5 (by decide)).trans (arg_at_U2 m c main_arg5 (by decide) (by decide)))
  rw [eX, eW]
  unfold val_main_v64
  rfl

end Cert.KernelIdeal.Hand

end
-- ==== Proof.KI.Value3.lean ====
import proofs.«419905_j28260884807710_1_alg».proof.Proof.KI.Region3
import proofs.«419905_j28260884807710_1_alg».proof.Proof.KI.Value1
import proofs.«419905_j28260884807710_1_alg».proof.Proof.KI.Specs
import proofs.«419905_j28260884807710_1_alg».proof.Proof.KI.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

abbrev agg3 (c : Dev nD) : FVec Ideal S100000x64 .f32 := V c main_v61
abbrev lin3 (c : Dev nD) : FVec Ideal S100000x64 .f32 := V c main_v48
abbrev dinv3 (c : Dev nD) : FVec Ideal S100000x1 .f32 := V c main_v27
abbrev bias3 (c : Dev nD) : FVec Ideal S1x64 .f32 := V c main_v62
abbrev gam3 (c : Dev nD) : FVec Ideal S1x64 .f32 := V c main_v63
abbrev bet3 (c : Dev nD) : FVec Ideal S1x64 .f32 := V c main_v64
abbrev mean3 (c : Dev nD) : FVec Ideal S1x64 .f32 := V c main_v65
abbrev var3 (c : Dev nD) : FVec Ideal S1x64 .f32 := V c main_v66

abbrev whole3 (c : Dev nD) : FVec Ideal S100000x64 .f32 :=
  bnReluSpec (agg3 V c) (lin3 V c) (fun r => dinv3 V c (colAt r)) (fun j => bias3 V c (rowAt64 j)) (fun j => gam3 V c (rowAt64 j))
    (fun j => bet3 V c (rowAt64 j)) (fun j => mean3 V c (rowAt64 j)) (fun j => var3 V c (rowAt64 j))

theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem emb3_0 (t : Fin cfg3.N) (y : S5000x64.Idx) :
    ((cfg3.win 0).blk t).view.emb y = ((cfg3.win 8).blk t).view.emb y := by
  obtain ⟨pa, qa, ph, qh, pd, qd, pb, qb, pg, qg, pe, qe, pm, qm, pv, qv, po, qo⟩ := idx3 t
  funext a; apply Fin.ext
  match a with
  | ⟨0, _⟩ => show win3_0.index t (0 : Fin 2) * 5000 + 1 * (y 0).val = win3_8.index t (0 : Fin 2) * 5000 + 1 * (y 0).val; omega
  | ⟨1, _⟩ => show win3_0.index t (1 : Fin 2) * 64 + 1 * (y 1).val = win3_8.index t (1 : Fin 2) * 64 + 1 * (y 1).val; omega

theorem emb3_1 (t : Fin cfg3.N) (y : S5000x64.Idx) :
    ((cfg3.win 1).blk t).view.emb y = ((cfg3.win 8).blk t).view.emb y := by
  obtain ⟨pa, qa, ph, qh, pd, qd, pb, qb, pg, qg, pe, qe, pm, qm, pv, qv, po, qo⟩ := idx3 t
  funext a; apply Fin.ext
  match a with
  | ⟨0, _⟩ => show win3_1.index t (0 : Fin 2) * 5000 + 1 * (y 0).val = win3_8.index t (0 : Fin 2) * 5000 + 1 * (y 0).val; omega
  | ⟨1, _⟩ => show win3_1.index t (1 : Fin 2) * 64 + 1 * (y 1).val = win3_8.index t (1 : Fin 2) * 64 + 1 * (y 1).val; omega

theorem emb3_2 (t : Fin cfg3.N) (y : S5000x64.Idx) :
    ((cfg3.win 2).blk t).view.emb (cAt1 (y 0))
      = colAt ⟨((((cfg3.win 8).blk t).view.emb y) 0).val, ((((cfg3.win 8).blk t).view.emb y) 0).isLt⟩ := by
  obtain ⟨pa, qa, ph, qh, pd, qd, pb, qb, pg, qg, pe, qe, pm, qm, pv, qv, po, qo⟩ := idx3 t
  funext a; apply Fin.ext
  match a with
  | ⟨0, _⟩ => show win3_2.index t (0 : Fin 2) * 5000 + 1 * (y 0).val = win3_8.index t (0 : Fin 2) * 5000 + 1 * (y 0).val; omega
  | ⟨1, _⟩ => show win3_2.index t (1 : Fin 2) * 1 + 1 * 0 = 0; omega

theorem emb3_3 (t : Fin cfg3.N) (y : S5000x64.Idx) :
    ((cfg3.win 3).blk t).view.emb (rowAt64 (y 1))
      = rowAt64 ⟨((((cfg3.win 8).blk t).view.emb y) 1).val, ((((cfg3.win 8).blk t).view.emb y) 1).isLt⟩ := by
  obtain ⟨pa, qa, ph, qh, pd, qd, pb, qb, pg, qg, pe, qe, pm, qm, pv, qv, po, qo⟩ := idx3 t
  funext a; apply Fin.ext
  match a with
  | ⟨0, _⟩ => show win3_3.index t (0 : Fin 2) * 1 + 1 * 0 = 0; omega
  | ⟨1, _⟩ => show win3_3.index t (1 : Fin 2) * 64 + 1 * (y 1).val = win3_8.index t (1 : Fin 2) * 64 + 1 * (y 1).val; omega

theorem emb3_4 (t : Fin cfg3.N) (y : S5000x64.Idx) :
    ((cfg3.win 4).blk t).view.emb (rowAt64 (y 1))
      = rowAt64 ⟨((((cfg3.win 8).blk t).view.emb y) 1).val, ((((cfg3.win 8).blk t).view.emb y) 1).isLt⟩ := by
  obtain ⟨pa, qa, ph, qh, pd, qd, pb, qb, pg, qg, pe, qe, pm, qm, pv, qv, po, qo⟩ := idx3 t
  funext a; apply Fin.ext
  match a with
  | ⟨0, _⟩ => show win3_4.index t (0 : Fin 2) * 1 + 1 * 0 = 0; omega
  | ⟨1, _⟩ => show win3_4.index t (1 : Fin 2) * 64 + 1 * (y 1).val = win3_8.index t (1 : Fin 2) * 64 + 1 * (y 1).val; omega

theorem emb3_5 (t : Fin cfg3.N) (y : S5000x64.Idx) :
    ((cfg3.win 5).blk t).view.emb (rowAt64 (y 1))
      = rowAt64 ⟨((((cfg3.win 8).blk t).view.emb y) 1).val, ((((cfg3.win 8).blk t).view.emb y) 1).isLt⟩ := by
  obtain ⟨pa, qa, ph, qh, pd, qd, pb, qb, pg, qg, pe, qe, pm, qm, pv, qv, po, qo⟩ := idx3 t
  funext a; apply Fin.ext
  match a with
  | ⟨0, _⟩ => show win3_5.index t (0 : Fin 2) * 1 + 1 * 0 = 0; omega
  | ⟨1, _⟩ => show win3_5.index t (1 : Fin 2) * 64 + 1 * (y 1).val = win3_8.index t (1 : Fin 2) * 64 + 1 * (y 1).val; omega

theorem emb3_6 (t : Fin cfg3.N) (y : S5000x64.Idx) :
    ((cfg3.win 6).blk t).view.emb (rowAt64 (y 1))
      = rowAt64 ⟨((((cfg3.win 8).blk t).view.emb y) 1).val, ((((cfg3.win 8).blk t).view.emb y) 1).isLt⟩ := by
  obtain ⟨pa, qa, ph, qh, pd, qd, pb, qb, pg, qg, pe, qe, pm, qm, pv, qv, po, qo⟩ := idx3 t
  funext a; apply Fin.ext
  match a with
  | ⟨0, _⟩ => show win3_6.index t (0 : Fin 2) * 1 + 1 * 0 = 0; omega
  | ⟨1, _⟩ => show win3_6.index t (1 : Fin 2) * 64 + 1 * (y 1).val = win3_8.index t (1 : Fin 2) * 64 + 1 * (y 1).val; omega

theorem emb3_7 (t : Fin cfg3.N) (y : S5000x64.Idx) :
    ((cfg3.win 7).blk t).view.emb (rowAt64 (y 1))
      = rowAt64 ⟨((((cfg3.win 8).blk t).view.emb y) 1).val, ((((cfg3.win 8).blk t).view.emb y) 1).isLt⟩ := by
  obtain ⟨pa, qa, ph, qh, pd, qd, pb, qb, pg, qg, pe, qe, pm, qm, pv, qv, po, qo⟩ := idx3 t
  funext a; apply Fin.ext
  match a with
  | ⟨0, _⟩ => show win3_7.index t (0 : Fin 2) * 1 + 1 * 0 = 0; omega
  | ⟨1, _⟩ => show win3_7.index t (1 : Fin 2) * 64 + 1 * (y 1).val = win3_8.index t (1 : Fin 2) * 64 + 1 * (y 1).val; omega

theorem flushed3 (c : Dev nD) (t : Fin cfg3.N) :
    (dat3 V c).flushed 8 t = ((cfg3.win 8).blk t).view.read (Elt Ideal) (whole3 V c) := by
  show (cfg3.win 8).cut (grid3.coords t) ((dat3 V c).after 8 t) = _
  rw [after3_8]
  funext y
  refine (comb1_apply _ _ _ _ _ _ _ _ y).trans ?_
  show _ = whole3 V c (((cfg3.win 8).blk t).view.emb y)
  refine Eq.trans ?_ (spec1_apply (agg3 V c) (lin3 V c) (dinv3 V c) (bias3 V c) (gam3 V c) (bet3 V c) (mean3 V c) (var3 V c) _).symm
  exact bnAt1_congr (congrArg (agg3 V c) (emb3_0 t y)) (congrArg (lin3 V c) (emb3_1 t y)) (congrArg (dinv3 V c) (emb3_2 t y)) (congrArg (bias3 V c) (emb3_3 t y)) (congrArg (gam3 V c) (emb3_4 t y)) (congrArg (bet3 V c) (emb3_5 t y)) (congrArg (mean3 V c) (emb3_6 t y)) (congrArg (var3 V c) (emb3_7 t y))

theorem mem_blk3 (t : Fin cfg3.N) (i : S100000x64.Idx) :
    i ∈ ((cfg3.win 8).blk t).view.set ↔ ∀ a : Fin 2, win3_8.index t a * S5000x64.size a ≤ (i a).val ∧ (i a).val < win3_8.index t a * S5000x64.size a + S5000x64.size a := by
  show i ∈ ((View.whole main_v67).slice (win3_8.rect t)).set ↔ _
  rw [View.set_slice_whole, Rect.mem_set_unit]
  exact Iff.rfl

theorem cover3 (i : S100000x64.Idx) : ∃ t : Fin cfg3.N, (cfg3.win 8).flush t = true ∧ i ∈ ((cfg3.win 8).blk t).view.set := by
  have hrow : (i 0).val < 100000 := (i 0).isLt
  have hcol : (i 1).val < 64 := (i 1).isLt
  have hN : cfg3.N = 20 := N_3
  refine ⟨⟨(i 0).val / 5000, by omega⟩, flush3_8 _, ?_⟩
  rw [mem_blk3]
  obtain ⟨pa, qa, ph, qh, pd, qd, pb, qb, pg, qg, pe, qe, pm, qm, pv, qv, po, qo⟩ := idx3 ⟨(i 0).val / 5000, by omega⟩
  intro a
  match a with
  | ⟨0, _⟩ => show win3_8.index _ (0 : Fin 2) * 5000 ≤ (i 0).val ∧ (i 0).val < win3_8.index _ (0 : Fin 2) * 5000 + 5000; rw [po]; dsimp only; omega
  | ⟨1, _⟩ => show win3_8.index _ (1 : Fin 2) * 64 ≤ (i 1).val ∧ (i 1).val < win3_8.index _ (1 : Fin 2) * 64 + 64; rw [qo]; omega

theorem value3 (c : Dev nD) :
    (dat3 V c).arrAt 8 cfg3.N = bnReluSpec (agg3 V c) (lin3 V c) (fun r => dinv3 V c (colAt r)) (fun j => bias3 V c (rowAt64 j))
      (fun j => gam3 V c (rowAt64 j)) (fun j => bet3 V c (rowAt64 j)) (fun j => mean3 V c (rowAt64 j)) (fun j => var3 V c (rowAt64 j)) :=
  (dat3 V c).arrAt_eq_of_cover 8 _ (fun t _ => flushed3 V c t) cover3

end Cert.KernelIdeal.Hand

end
-- ==== Proof.KI.Value4.lean ====
import proofs.«419905_j28260884807710_1_alg».proof.Proof.KI.Region4
import proofs.«419905_j28260884807710_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

theorem origin2_4 : (![0, 0] : Fin 2 → Nat) = fun _ => 0 := funext fun a => by fin_cases a <;> rfl

abbrev xAt4 (r : Fin 5000) (k : Fin 64) : S5000x64.Idx := fun a => match a with
  | ⟨0, _⟩ => ⟨r.val, r.isLt⟩
  | ⟨1, _⟩ => ⟨k.val, k.isLt⟩
abbrev wAt4 (k : Fin 64) (j : Fin 128) : S64x128.Idx := fun a => match a with
  | ⟨0, _⟩ => ⟨k.val, k.isLt⟩
  | ⟨1, _⟩ => ⟨j.val, j.isLt⟩
abbrev xxAt4 (r : Fin 100000) (k : Fin 64) : S100000x64.Idx := fun a => match a with
  | ⟨0, _⟩ => ⟨r.val, r.isLt⟩
  | ⟨1, _⟩ => ⟨k.val, k.isLt⟩

theorem kl4_0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem kl4_1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem kr4_0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem kr4_1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem prod4_apply (x : Vec Ideal S5000x64 .f32) (wt : Vec Ideal S64x128 .f32) (y : S5000x128.Idx) :
    prod4 (F := Ideal) x wt y = ∑ k : Fin 64, x (xAt4 (y 0) k) * wt (wAt4 k (y 1)) := by
  unfold prod4
  rw [View.canon_unit_zero origin2_4]
  simp only [View.ld_unit_zero (S := S5000x64) origin2_4, View.ld_unit_zero (S := S64x128) origin2_4]
  unfold k4_pay1
  simp only [shapeCast_self]
  refine (Ideal.matmul_constant_zero_apply dot_S5000x64_S64x128_S5000x128_1_0_0_1_n_n none _ _ y).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx y ((ValueIdx.contrEquiv1 dot_S5000x64_S64x128_S5000x128_1_0_0_1_n_n 64 rfl rfl).symm k) = xAt4 (y 0) k := funext fun a => Fin.ext (by
    match a with
    | ⟨0, _⟩ => exact kl4_0 _ _
    | ⟨1, _⟩ => exact (kl4_1 _ _).trans hk)
  have er : dot_S5000x64_S64x128_S5000x128_1_0_0_1_n_n.rhsIdx y ((ValueIdx.contrEquiv1 dot_S5000x64_S64x128_S5000x128_1_0_0_1_n_n 64 rfl rfl).symm k) = wAt4 k (y 1) := funext fun a => Fin.ext (by
    match a with
    | ⟨0, _⟩ => exact (kr4_0 _ _).trans hk
    | ⟨1, _⟩ => exact kr4_1 _ _)
  rw [el, er]
  rfl

theorem rl4_0 (i : S100000x128.Idx) (q : Cert.ReferenceIdeal.dot_S100000x64_S64x128_S100000x128_1_0_0_1_n_n.contr.Idx) : (Cert.ReferenceIdeal.dot_S100000x64_S64x128_S100000x128_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
theorem rl4_1 (i : S100000x128.Idx) (q : Cert.ReferenceIdeal.dot_S100000x64_S64x128_S100000x128_1_0_0_1_n_n.contr.Idx) : (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
theorem rr4_0 (i : S100000x128.Idx) (q : Cert.ReferenceIdeal.dot_S100000x64_S64x128_S100000x128_1_0_0_1_n_n.contr.Idx) : (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
theorem rr4_1 (i : S100000x128.Idx) (q : Cert.ReferenceIdeal.dot_S100000x64_S64x128_S100000x128_1_0_0_1_n_n.contr.Idx) : (Cert.ReferenceIdeal.dot_S100000x64_S64x128_S100000x128_1_0_0_1_n_n.rhsIdx i q 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl

abbrev whole4 (X : FVec Ideal S100000x64 .f32) (Wt : FVec Ideal S64x128 .f32) : FVec Ideal S100000x128 .f32 :=
  Host.dotGeneral (F := Ideal) Cert.ReferenceIdeal.dot_S100000x64_S64x128_S100000x128_1_0_0_1_n_n none X Wt

theorem whole4_apply (X : FVec Ideal S100000x64 .f32) (Wt : FVec Ideal S64x128 .f32) (i : S100000x128.Idx) :
    whole4 X Wt i = ∑ k : Fin 64, X (xxAt4 (i 0) k) * Wt (wAt4 k (i 1)) := by
  unfold whole4
  simp only [Host.dotGeneral]
  rw [Ideal.dotGeneral_apply, ← Equiv.sum_comp (ValueIdx.contrEquiv1 Cert.ReferenceIdeal.dot_S100000x64_S64x128_S100000x128_1_0_0_1_n_n 64 rfl rfl).symm]
  refine Finset.sum_congr rfl fun k _ => ?_
  have hk := ValueIdx.contrEquiv1_symm_val Cert.ReferenceIdeal.dot_S100000x64_S64x128_S100000x128_1_0_0_1_n_n 64 rfl rfl k
  have el : Cert.ReferenceIdeal.dot_S100000x64_S64x128_S100000x128_1_0_0_1_n_n.lhsIdx i ((ValueIdx.contrEquiv1 Cert.ReferenceIdeal.dot_S100000x64_S64x128_S100000x128_1_0_0_1_n_n 64 rfl rfl).symm k) = xxAt4 (i 0) k := funext fun a => Fin.ext (by
    match a with
    | ⟨0, _⟩ => exact rl4_0 _ _
    | ⟨1, _⟩ => exact (rl4_1 _ _).trans hk)
  have er : Cert.ReferenceIdeal.dot_S100000x64_S64x128_S100000x128_1_0_0_1_n_n.rhsIdx i ((ValueIdx.contrEquiv1 Cert.ReferenceIdeal.dot_S100000x64_S64x128_S100000x128_1_0_0_1_n_n 64 rfl rfl).symm k) = wAt4 k (i 1) := funext fun a => Fin.ext (by
    match a with
    | ⟨0, _⟩ => exact (rr4_0 _ _).trans hk
    | ⟨1, _⟩ => exact rr4_1 _ _)
  rw [el, er]

variable (V : (c : Dev nD) → (b : Ref sig .tc) → Buf (Elt Ideal) ((c : Thread nD τ).loc b))

abbrev actArr4 (c : Dev nD) : FVec Ideal S100000x64 .f32 := V c main_v67
abbrev wgtArr4 (c : Dev nD) : FVec Ideal S64x128 .f32 := V c main_arg7

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4 (c : Dev nD) (t : Fin cfg4.N) :
    (dat4 V c).flushed 2 t = ((cfg4.win 2).blk t).view.read (Elt Ideal) (whole4 (actArr4 V c) (wgtArr4 V c)) := by
  show (cfg4.win 2).cut (grid4.coords t) ((dat4 V c).after 2 t) = _
  rw [after4_2]
  obtain ⟨e0, e1, e2, e3, e4, e5⟩ := idx4 t
  funext y
  refine (prod4_apply _ _ y).trans ?_
  show _ = whole4 (actArr4 V c) (wgtArr4 V c) (((cfg4.win 2).blk t).view.emb y)
  rw [whole4_apply]
  refine Finset.sum_congr rfl fun k _ => ?_
  show actArr4 V c (((cfg4.win 0).blk t).view.emb (xAt4 (y 0) k)) * wgtArr4 V c (((cfg4.win 1).blk t).view.emb (wAt4 k (y 1))) = _
  have hx : ((cfg4.win 0).blk t).view.emb (xAt4 (y 0) k) = xxAt4 ((((cfg4.win 2).blk t).view.emb y) 0) k := by
    funext a; apply Fin.ext
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 64 + 1 * k.val = k.val; omega
  have hw : ((cfg4.win 1).blk t).view.emb (wAt4 k (y 1)) = wAt4 k ((((cfg4.win 2).blk t).view.emb y) 1) := by
    funext a; apply Fin.ext
    match a with
    | ⟨0, _⟩ => show win4_1.index t (0 : Fin 2) * 64 + 1 * k.val = k.val; omega
    | ⟨1, _⟩ => show win4_1.index t (1 : Fin 2) * 128 + 1 * (y 1).val = win4_2.index t (1 : Fin 2) * 128 + 1 * (y 1).val; omega
  rw [hx, hw]

theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v68).slice (win4_2.rect t)).set ↔ _
  rw [View.set_slice_whole, Rect.mem_set_unit]
  exact Iff.rfl

theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  refine ⟨⟨(i 0).val / 5000, by omega⟩, flush4_2 _, ?_⟩
  rw [mem_blk4]
  obtain ⟨e0, e1, e2, e3, e4, e5⟩ := idx4 ⟨(i 0).val / 5000, by omega⟩
  intro a
  match a with
  | ⟨0, _⟩ => show win4_2.index _ (0 : Fin 2) * 5000 ≤ (i 0).val ∧ (i 0).val < win4_2.index _ (0 : Fin 2) * 5000 + 5000; rw [e4]; dsimp only; omega
  | ⟨1, _⟩ => show win4_2.index _ (1 : Fin 2) * 64 ≤ (i 1).val ∧ (i 1).val < win4_2.index _ (1 : Fin 2) * 128 + 128; rw [e5]; omega

theorem value4 (c : Dev nD) :
    (dat4 V c).arrAt 2 cfg4.N = whole4 (actArr4 V c) (wgtArr4 V c) :=
  (dat4 V c).arrAt_eq_of_cover 2 _ (fun t _ => flushed4 V c t) cover4

end Cert.KernelIdeal.Hand

end
-- ==== Proof.KI.Value5.lean ====
import proofs.«419905_j28260884807710_1_alg».proof.Proof.KI.Region5
import proofs.«419905_j28260884807710_1_alg».proof.Proof.KI.Specs
import proofs.«419905_j28260884807710_1_alg».proof.Proof.KI.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

theorem org5 : (![0, 0] : Fin 2 → Nat) = fun _ => 0 := funext fun a => by fin_cases a <;> rfl

abbrev colBlk5 (r : Fin 5000) : S5000x1.Idx := fun a => match a with
  | ⟨0, _⟩ => ⟨r.val, r.isLt⟩
  | ⟨1, _⟩ => ⟨0, Nat.one_pos⟩

theorem bcastCol5 (d : S5000x1.Idx → Ideal .f32) (y : S5000x128.Idx) :
    broadcastTo S5000x128 d broadcasts_S5000x1_S5000x128 y = d (colBlk5 (y 0)) := by
  refine broadcastTo_apply d _ y (colBlk5 (y 0)) fun a => ?_
  match a with
  | ⟨0, _⟩ => rfl
  | ⟨1, _⟩ => rfl

theorem bcastRow5 (b : S1x128.Idx → Ideal .f32) (y : S5000x128.Idx) :
    broadcastTo S5000x128 b broadcasts_S1x128_S5000x128 y = b (rowAt128 (y 1)) := by
  refine broadcastTo_apply b _ y (rowAt128 (y 1)) fun a => ?_
  match a with
  | ⟨0, _⟩ => rfl
  | ⟨1, _⟩ => rfl

theorem comb5_apply (a h : Vec Ideal S5000x128 .f32) (d : Vec Ideal S5000x1 .f32) (b : Vec Ideal S1x128 .f32) (y : S5000x128.Idx) :
    comb5 (F := Ideal) a h d b y
      = FloatOps.maximumf (F := Ideal) (FloatOps.addf (FloatOps.addf (a y) (FloatOps.mulf (h y) (d (colBlk5 (y 0))))) (b (rowAt128 (y 1))))
          (FloatOps.ofBits .f32 0x00000000#32) := by
  unfold comb5
  rw [View.canon_unit_zero org5]
  simp only [View.ld_unit_zero (S := S5000x128) org5, View.ld_unit_zero (S := S5000x1) org5, View.ld_unit_zero (S := S1x128) org5]
  unfold k5_pay1
  simp only [shapeCast_self]
  show FloatOps.maximumf (F := Ideal) (FloatOps.addf (FloatOps.addf (a y) (FloatOps.mulf (h y) (broadcastTo S5000x128 d broadcasts_S5000x1_S5000x128 y)))
      (broadcastTo S5000x128 b broadcasts_S1x128_S5000x128 y)) (FloatOps.ofBits .f32 0x00000000#32) = _
  rw [bcastCol5, bcastRow5]

variable (V : (c : Dev nD) → (b : Ref sig .tc) → Buf (Elt Ideal) ((c : Thread nD τ).loc b))

abbrev agg5 (c : Dev nD) : FVec Ideal S100000x128 .f32 := V c main_v81
abbrev lin5 (c : Dev nD) : FVec Ideal S100000x128 .f32 := V c main_v68
abbrev dinv5 (c : Dev nD) : FVec Ideal S100000x1 .f32 := V c main_v27
abbrev bias5 (c : Dev nD) : FVec Ideal S1x128 .f32 := V c main_v82

theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem flushed5 (c : Dev nD) (t : Fin cfg5.N) :
    (dat5 V c).flushed 4 t = ((cfg5.win 4).blk t).view.read (Elt Ideal)
      (reluSpec (agg5 V c) (lin5 V c) (fun r => dinv5 V c (colAt r)) (fun j => bias5 V c (rowAt128 j))) := by
  show (cfg5.win 4).cut (grid5.coords t) ((dat5 V c).after 4 t) = _
  rw [after5_4]
  obtain ⟨e0, e1, e2, e3, e4, e5, e6, e7, e8, e9⟩ := idx5 t
  funext y
  refine (comb5_apply _ _ _ _ y).trans ?_
  show _ = reluSpec (agg5 V c) (lin5 V c) (fun r => dinv5 V c (colAt r)) (fun j => bias5 V c (rowAt128 j)) (((cfg5.win 4).blk t).view.emb y)
  unfold reluSpec
  show FloatOps.maximumf (F := Ideal) (FloatOps.addf (FloatOps.addf (agg5 V c (((cfg5.win 0).blk t).view.emb y))
        (FloatOps.mulf (lin5 V c (((cfg5.win 1).blk t).view.emb y)) (dinv5 V c (((cfg5.win 2).blk t).view.emb (colBlk5 (y 0))))))
      (bias5 V c (((cfg5.win 3).blk t).view.emb (rowAt128 (y 1))))) (FloatOps.ofBits .f32 0x00000000#32) = _
  have h0 : ((cfg5.win 0).blk t).view.emb y = ((cfg5.win 4).blk t).view.emb y := by
    funext a; apply Fin.ext
    match a with
    | ⟨0, _⟩ => show win5_0.index t (0 : Fin 2) * 5000 + 1 * (y 0).val = win5_4.index t (0 : Fin 2) * 5000 + 1 * (y 0).val; omega
    | ⟨1, _⟩ => show win5_0.index t (1 : Fin 2) * 128 + 1 * (y 1).val = win5_4.index t (1 : Fin 2) * 128 + 1 * (y 1).val; omega
  have h1 : ((cfg5.win 1).blk t).view.emb y = ((cfg5.win 4).blk t).view.emb y := by
    funext a; apply Fin.ext
    match a with
    | ⟨0, _⟩ => show win5_1.index t (0 : Fin 2) * 5000 + 1 * (y 0).val = win5_4.index t (0 : Fin 2) * 5000 + 1 * (y 0).val; omega
    | ⟨1, _⟩ => show win5_1.index t (1 : Fin 2) * 128 + 1 * (y 1).val = win5_4.index t (1 : Fin 2) * 128 + 1 * (y 1).val; omega
  have h2 : ((cfg5.win 2).blk t).view.emb (colBlk5 (y 0))
      = colAt ⟨((((cfg5.win 4).blk t).view.emb y) 0).val, ((((cfg5.win 4).blk t).view.emb y) 0).isLt⟩ := by
    funext a; apply Fin.ext
    match a with
    | ⟨0, _⟩ => show win5_2.index t (0 : Fin 2) * 5000 + 1 * (y 0).val = win5_4.index t (0 : Fin 2) * 5000 + 1 * (y 0).val; omega
    | ⟨1, _⟩ => show win5_2.index t (1 : Fin 2) * 1 + 1 * 0 = 0; omega
  have h3 : ((cfg5.win 3).blk t).view.emb (rowAt128 (y 1))
      = rowAt128 ⟨((((cfg5.win 4).blk t).view.emb y) 1).val, ((((cfg5.win 4).blk t).view.emb y) 1).isLt⟩ := by
    funext a; apply Fin.ext
    match a with
    | ⟨0, _⟩ => show win5_3.index t (0 : Fin 2) * 1 + 1 * 0 = 0; omega
    | ⟨1, _⟩ => show win5_3.index t (1 : Fin 2) * 128 + 1 * (y 1).val = win5_4.index t (1 : Fin 2) * 128 + 1 * (y 1).val; omega
  rw [h0, h1, h2, h3]

theorem mem_blk5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v83).slice (win5_4.rect t)).set ↔ _
  rw [View.set_slice_whole, Rect.mem_set_unit]
  exact Iff.rfl

theorem cover5 (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  refine ⟨⟨(i 0).val / 5000, by omega⟩, flush5_4 _, ?_⟩
  rw [mem_blk5]
  obtain ⟨e0, e1, e2, e3, e4, e5, e6, e7, e8, e9⟩ := idx5 ⟨(i 0).val / 5000, by omega⟩
  intro a
  match a with
  | ⟨0, _⟩ => show win5_4.index _ (0 : Fin 2) * 5000 ≤ (i 0).val ∧ (i 0).val < win5_4.index _ (0 : Fin 2) * 5000 + 5000; rw [e8]; dsimp only; omega
  | ⟨1, _⟩ => show win5_4.index _ (1 : Fin 2) * 128 ≤ (i 1).val ∧ (i 1).val < win5_4.index _ (1 : Fin 2) * 128 + 128; rw [e9]; omega

theorem value5 (c : Dev nD) :
    (dat5 V c).arrAt 4 cfg5.N = reluSpec (agg5 V c) (lin5 V c) (fun r => dinv5 V c (colAt r)) (fun j => bias5 V c (rowAt128 j)) :=
  (dat5 V c).arrAt_eq_of_cover 4 _ (fun t _ => flushed5 V c t) cover5

end Cert.KernelIdeal.Hand

end
-- ==== Proof.KI.BridgeB.lean ====
import proofs.«419905_j28260884807710_1_alg».proof.Proof.KI.BridgeA
import proofs.«419905_j28260884807710_1_alg».proof.Proof.KI.Value3
import proofs.«419905_j28260884807710_1_alg».proof.Proof.KI.Value4
import proofs.«419905_j28260884807710_1_alg».proof.Proof.KI.Value5
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.StableHlo
open Cert.ReferenceIdeal.Read

variable (m : (ℓ : Loc nD τ sig) → Buf (Elt Ideal) ℓ) (c : Dev nD)

theorem keep_1_5B (r : Ref sig .tc)
    (h2 : ∀ w : Fin cfg0.W, (cfg0.win w).isOut = true → Pipeline.arrRef spec0 w ≠ r) (h3 : r ∉ hostOps1_W)
    (h4 : ∀ w : Fin cfg1.W, (cfg1.win w).isOut = true → Pipeline.arrRef spec1 w ≠ r)
    (h5 : ∀ w : Fin cfg2.W, (cfg2.win w).isOut = true → Pipeline.arrRef spec2 w ≠ r) :
    U5 m c (Proc.devRef .tc r) = U1 m c (Proc.devRef .tc r) :=
  (U5_keep m c r h5).trans ((U4_keep m c r h4).trans ((U3_keep m c r h3).trans (U2_keep m c r h2)))

theorem keep_5_8B (r : Ref sig .tc) (h6 : r ∉ hostOps3_W)
    (h7 : ∀ w : Fin cfg3.W, (cfg3.win w).isOut = true → Pipeline.arrRef spec3 w ≠ r)
    (h8 : ∀ w : Fin cfg4.W, (cfg4.win w).isOut = true → Pipeline.arrRef spec4 w ≠ r) :
    U8 m c (Proc.devRef .tc r) = U5 m c (Proc.devRef .tc r) :=
  (U8_keep m c r h8).trans ((U7_keep m c r h7).trans (U6_keep m c r h6))

theorem arg_at_5B (r : Ref sig .tc) (h1 : r ∉ hostOps0_W)
    (h2 : ∀ w : Fin cfg0.W, (cfg0.win w).isOut = true → Pipeline.arrRef spec0 w ≠ r) (h3 : r ∉ hostOps1_W)
    (h4 : ∀ w : Fin cfg1.W, (cfg1.win w).isOut = true → Pipeline.arrRef spec1 w ≠ r)
    (h5 : ∀ w : Fin cfg2.W, (cfg2.win w).isOut = true → Pipeline.arrRef spec2 w ≠ r) :
    U5 m c (Proc.devRef .tc r) = U0 m c (Proc.devRef .tc r) :=
  (keep_1_5B m c r h2 h3 h4 h5).trans (U1_keep m c r h1)

theorem row128_of_vecB (v : S128.Idx → Ideal .f32) (j : Fin 128) :
    shapeCast S1x128 v shapeCasts_S128_S1x128 (rowAt128 j) = v (vecAt128 j) :=
  shapeCast_apply v shapeCasts_S128_S1x128 (rowAt128 j) (vecAt128 j) (by
    rw [Shape.rowMajor_val_one, Shape.rowMajor_val_two]
    show j.val = 0 * 128 + j.val
    omega)

theorem reluSpec_congrB {a a' l l' : FVec Ideal S100000x128 .f32} {D D' : Fin 100000 → Ideal .f32}
    {B B' : Fin 128 → Ideal .f32} (ha : a = a') (hl : l = l') (hD : D = D') (hB : B = B') :
    reluSpec a l D B = reluSpec a' l' D' B' := by
  subst ha hl hD hB; rfl

section
variable (hsrc : atTc (U1 m) c main_v1 = val_main_v1 (F := Ideal) (X1 m c))
  (hdst : atTc (U1 m) c main_v3 = val_main_v3 (F := Ideal) (X1 m c))
  (hnorm : atTc (U1 m) c main_v25 = val_main_v25 (F := Ideal) (X1 m c))
  (hdinv : atTc (U1 m) c main_v27 = shapeCast S100000x1 (val_main_v26 (F := Ideal) (X1 m c)) shapeCasts_S100000_S100000x1)
  (hlin2 : atTc (U5 m) c main_v48 = val_main_v64 (F := Ideal) (X0 m c) (X1 m c) (X3 m c) (X4 m c) (X5 m c) (X9 m c) (X10 m c) (X11 m c) (X12 m c))

include hsrc hdst hnorm hlin2 in

theorem st6_agg2 : atTc (U6 m) c main_v61 = val_main_v77 (F := Ideal) (X0 m c) (X1 m c) (X3 m c) (X4 m c) (X5 m c) (X9 m c) (X10 m c) (X11 m c) (X12 m c) := by
  show StableHlo.after hostOps3 (U5 m c) (Proc.devRef .tc main_v61) = _
  have h48 : U5 m c (Proc.devRef .tc main_v48) = val_main_v64 (F := Ideal) (X0 m c) (X1 m c) (X3 m c) (X4 m c) (X5 m c) (X9 m c) (X10 m c) (X11 m c) (X12 m c) := hlin2
  have h1 : U5 m c (Proc.devRef .tc main_v1) = val_main_v1 (F := Ideal) (X1 m c) :=
    (keep_1_5B m c main_v1 (by decide) (by decide) (by decide) (by decide)).trans hsrc
  have h3 : U5 m c (Proc.devRef .tc main_v3) = val_main_v3 (F := Ideal) (X1 m c) :=
    (keep_1_5B m c main_v3 (by decide) (by decide) (by decide) (by decide)).trans hdst
  have h25 : U5 m c (Proc.devRef .tc main_v25) = val_main_v25 (F := Ideal) (X1 m c) :=
    (keep_1_5B m c main_v25 (by decide) (by decide) (by decide) (by decide)).trans hnorm
  generalize U5 m c = W at h48 h1 h3 h25 ⊢
  after_results
  rw [h48, h1, h3, h25]
  simp only [val_main_v77, val_main_v76, val_main_v75, val_main_v74, val_main_v73, val_main_v72, val_main_v71,
    val_main_v70, val_main_v69, val_main_v68, val_main_v67, val_main_v66, val_main_v65, val_main_c_9, val_main_c_10,
    val_main_cst_11]
  rfl

theorem st6_rows : atTc (U6 m) c main_v62 = shapeCast S1x64 (X6 m c) shapeCasts_S64_S1x64
    ∧ atTc (U6 m) c main_v63 = shapeCast S1x64 (X13 m c) shapeCasts_S64_S1x64
    ∧ atTc (U6 m) c main_v64 = shapeCast S1x64 (X14 m c) shapeCasts_S64_S1x64
    ∧ atTc (U6 m) c main_v65 = shapeCast S1x64 (X15 m c) shapeCasts_S64_S1x64
    ∧ atTc (U6 m) c main_v66 = shapeCast S1x64 (X16 m c) shapeCasts_S64_S1x64 := by
  have h6 := arg_at_5B m c main_arg6 (by decide) (by decide) (by decide) (by decide) (by decide)
  have h13 := arg_at_5B m c main_arg13 (by decide) (by decide) (by decide) (by decide) (by decide)
  have h14 := arg_at_5B m c main_arg14 (by decide) (by decide) (by decide) (by decide) (by decide)
  have h15 := arg_at_5B m c main_arg15 (by decide) (by decide) (by decide) (by decide) (by decide)
  have h16 := arg_at_5B m c main_arg16 (by decide) (by decide) (by decide) (by decide) (by decide)
  refine ⟨?_, ?_, ?_, ?_, ?_⟩
  · show StableHlo.after hostOps3 (U5 m c) (Proc.devRef .tc main_v62) = _
    generalize U5 m c = W at h6 ⊢
    after_results
    rw [h6]
    rfl
  · show StableHlo.after hostOps3 (U5 m c) (Proc.devRef .tc main_v63) = _
    generalize U5 m c = W at h13 ⊢
    after_results
    rw [h13]
    rfl
  · show StableHlo.after hostOps3 (U5 m c) (Proc.devRef .tc main_v64) = _
    generalize U5 m c = W at h14 ⊢
    after_results
    rw [h14]
    rfl
  · show StableHlo.after hostOps3 (U5 m c) (Proc.devRef .tc main_v65) = _
    generalize U5 m c = W at h15 ⊢
    after_results
    rw [h15]
    rfl
  · show StableHlo.after hostOps3 (U5 m c) (Proc.devRef .tc main_v66) = _
    generalize U5 m c = W at h16 ⊢
    after_results
    rw [h16]
    rfl

include hsrc hdst hnorm hdinv hlin2 in

theorem st7_h2 : atTc (U7 m) c main_v67 = val_main_v100 (F := Ideal) (X0 m c) (X1 m c) (X3 m c) (X4 m c) (X5 m c) (X6 m c) (X9 m c) (X10 m c) (X11 m c) (X12 m c) (X13 m c) (X14 m c) (X15 m c) (X16 m c) := by
  refine (U7_arr m c 8).trans ((value3 (atTc (U6 m)) c).trans ?_)
  obtain ⟨r62, r63, r64, r65, r66⟩ := st6_rows m c
  have eA : agg3 (atTc (U6 m)) c = val_main_v77 (F := Ideal) (X0 m c) (X1 m c) (X3 m c) (X4 m c) (X5 m c) (X9 m c) (X10 m c) (X11 m c) (X12 m c) :=
    st6_agg2 m c hsrc hdst hnorm hlin2
  have eL : lin3 (atTc (U6 m)) c = val_main_v64 (F := Ideal) (X0 m c) (X1 m c) (X3 m c) (X4 m c) (X5 m c) (X9 m c) (X10 m c) (X11 m c) (X12 m c) :=
    (U6_keep m c main_v48 (by decide)).trans hlin2
  have eD : dinv3 (atTc (U6 m)) c
      = shapeCast S100000x1 (val_main_v26 (F := Ideal) (X1 m c)) shapeCasts_S100000_S100000x1 :=
    (U6_keep m c main_v27 (by decide)).trans
      ((keep_1_5B m c main_v27 (by decide) (by decide) (by decide) (by decide)).trans hdinv)
  have eB : bias3 (atTc (U6 m)) c = shapeCast S1x64 (X6 m c) shapeCasts_S64_S1x64 := r62
  have eG : gam3 (atTc (U6 m)) c = shapeCast S1x64 (X13 m c) shapeCasts_S64_S1x64 := r63
  have eE : bet3 (atTc (U6 m)) c = shapeCast S1x64 (X14 m c) shapeCasts_S64_S1x64 := r64
  have eM : mean3 (atTc (U6 m)) c = shapeCast S1x64 (X15 m c) shapeCasts_S64_S1x64 := r65
  have eV : var3 (atTc (U6 m)) c = shapeCast S1x64 (X16 m c) shapeCasts_S64_S1x64 := r66
  refine (bnReluSpec_congr eA eL
    (funext fun r => (congrFun eD (colAt r)).trans (col_of_vec _ r))
    (funext fun j => (congrFun eB (rowAt64 j)).trans (row_of_vec64 _ j))
    (funext fun j => (congrFun eG (rowAt64 j)).trans (row_of_vec64 _ j))
    (funext fun j => (congrFun eE (rowAt64 j)).trans (row_of_vec64 _ j))
    (funext fun j => (congrFun eM (rowAt64 j)).trans (row_of_vec64 _ j))
    (funext fun j => (congrFun eV (rowAt64 j)).trans (row_of_vec64 _ j))).trans ?_
  exact (ref_h2 (X0 m c) (X1 m c) (X3 m c) (X4 m c) (X5 m c) (X6 m c) (X9 m c) (X10 m c) (X11 m c) (X12 m c) (X13 m c) (X14 m c) (X15 m c) (X16 m c)).symm

include hsrc hdst hnorm hdinv hlin2 in

theorem st8_lin3 : atTc (U8 m) c main_v68 = val_main_v101 (F := Ideal) (X0 m c) (X1 m c) (X3 m c) (X4 m c) (X5 m c) (X6 m c) (X7 m c) (X9 m c) (X10 m c) (X11 m c) (X12 m c) (X13 m c) (X14 m c) (X15 m c) (X16 m c) := by
  refine (U8_arr m c 2).trans ((value4 (atTc (U7 m)) c).trans ?_)
  have eX : actArr4 (atTc (U7 m)) c = val_main_v100 (F := Ideal) (X0 m c) (X1 m c) (X3 m c) (X4 m c) (X5 m c) (X6 m c) (X9 m c) (X10 m c) (X11 m c) (X12 m c) (X13 m c) (X14 m c) (X15 m c) (X16 m c) :=
    st7_h2 m c hsrc hdst hnorm hdinv hlin2
  have eW : wgtArr4 (atTc (U7 m)) c = X7 m c :=
    (U7_keep m c main_arg7 (by decide)).trans ((U6_keep m c main_arg7 (by decide)).trans
      (arg_at_5B m c main_arg7 (by decide) (by decide) (by decide) (by decide) (by decide)))
  rw [eX, eW]
  unfold val_main_v101
  rfl

include hsrc hdst hnorm hdinv hlin2 in

theorem st9_agg3 : atTc (U9 m) c main_v81 = val_main_v114 (F := Ideal) (X0 m c) (X1 m c) (X3 m c) (X4 m c) (X5 m c) (X6 m c) (X7 m c) (X9 m c) (X10 m c) (X11 m c) (X12 m c) (X13 m c) (X14 m c) (X15 m c) (X16 m c) := by
  show StableHlo.after hostOps5 (U8 m c) (Proc.devRef .tc main_v81) = _
  have h68 : U8 m c (Proc.devRef .tc main_v68) = val_main_v101 (F := Ideal) (X0 m c) (X1 m c) (X3 m c) (X4 m c) (X5 m c) (X6 m c) (X7 m c) (X9 m c) (X10 m c) (X11 m c) (X12 m c) (X13 m c) (X14 m c) (X15 m c) (X16 m c) :=
    st8_lin3 m c hsrc hdst hnorm hdinv hlin2
  have h1 : U8 m c (Proc.devRef .tc main_v1) = val_main_v1 (F := Ideal) (X1 m c) :=
    (keep_5_8B m c main_v1 (by decide) (by decide) (by decide)).trans
      ((keep_1_5B m c main_v1 (by decide) (by decide) (by decide) (by decide)).trans hsrc)
  have h3 : U8 m c (Proc.devRef .tc main_v3) = val_main_v3 (F := Ideal) (X1 m c) :=
    (keep_5_8B m c main_v3 (by decide) (by decide) (by decide)).trans
      ((keep_1_5B m c main_v3 (by decide) (by decide) (by decide) (by decide)).trans hdst)
  have h25 : U8 m c (Proc.devRef .tc main_v25) = val_main_v25 (F := Ideal) (X1 m c) :=
    (keep_5_8B m c main_v25 (by decide) (by decide) (by decide)).trans
      ((keep_1_5B m c main_v25 (by decide) (by decide) (by decide) (by decide)).trans hnorm)
  generalize U8 m c = W at h68 h1 h3 h25 ⊢
  after_results
  rw [h68, h1, h3, h25]
  simp only [val_main_v114, val_main_v113, val_main_v112, val_main_v111, val_main_v110, val_main_v109, val_main_v108,
    val_main_v107, val_main_v106, val_main_v105, val_main_v104, val_main_v103, val_main_v102, val_main_c_13,
    val_main_c_14, val_main_cst_15]
  rfl

theorem st9_row : atTc (U9 m) c main_v82 = shapeCast S1x128 (X8 m c) shapeCasts_S128_S1x128 := by
  show StableHlo.after hostOps5 (U8 m c) (Proc.devRef .tc main_v82) = _
  have h8 : U8 m c (Proc.devRef .tc main_arg8) = X8 m c :=
    (keep_5_8B m c main_arg8 (by decide) (by decide) (by decide)).trans
      (arg_at_5B m c main_arg8 (by decide) (by decide) (by decide) (by decide) (by decide))
  generalize U8 m c = W at h8 ⊢
  after_results
  rw [h8]
  rfl

include hsrc hdst hnorm hdinv hlin2 in

theorem st10_h3 : atTc (U10 m) c main_v83 = val_main_v122 (F := Ideal) (X0 m c) (X1 m c) (X3 m c) (X4 m c) (X5 m c) (X6 m c) (X7 m c) (X8 m c) (X9 m c) (X10 m c) (X11 m c) (X12 m c) (X13 m c) (X14 m c) (X15 m c) (X16 m c) := by
  refine (U10_arr m c 4).trans ((value5 (atTc (U9 m)) c).trans ?_)
  have eA : agg5 (atTc (U9 m)) c = val_main_v114 (F := Ideal) (X0 m c) (X1 m c) (X3 m c) (X4 m c) (X5 m c) (X6 m c) (X7 m c) (X9 m c) (X10 m c) (X11 m c) (X12 m c) (X13 m c) (X14 m c) (X15 m c) (X16 m c) :=
    st9_agg3 m c hsrc hdst hnorm hdinv hlin2
  have eL : lin5 (atTc (U9 m)) c = val_main_v101 (F := Ideal) (X0 m c) (X1 m c) (X3 m c) (X4 m c) (X5 m c) (X6 m c) (X7 m c) (X9 m c) (X10 m c) (X11 m c) (X12 m c) (X13 m c) (X14 m c) (X15 m c) (X16 m c) :=
    (U9_keep m c main_v68 (by decide)).trans (st8_lin3 m c hsrc hdst hnorm hdinv hlin2)
  have eD : dinv5 (atTc (U9 m)) c
      = shapeCast S100000x1 (val_main_v26 (F := Ideal) (X1 m c)) shapeCasts_S100000_S100000x1 :=
    (U9_keep m c main_v27 (by decide)).trans ((keep_5_8B m c main_v27 (by decide) (by decide) (by decide)).trans
      ((keep_1_5B m c main_v27 (by decide) (by decide) (by decide) (by decide)).trans hdinv))
  have eB : bias5 (atTc (U9 m)) c = shapeCast S1x128 (X8 m c) shapeCasts_S128_S1x128 := st9_row m c
  refine (reluSpec_congrB eA eL
    (funext fun r => (congrFun eD (colAt r)).trans (col_of_vec _ r))
    (funext fun j => (congrFun eB (rowAt128 j)).trans (row128_of_vecB _ j))).trans ?_
  exact (ref_h3 (X0 m c) (X1 m c) (X3 m c) (X4 m c) (X5 m c) (X6 m c) (X7 m c) (X8 m c) (X9 m c) (X10 m c) (X11 m c) (X12 m c) (X13 m c) (X14 m c) (X15 m c) (X16 m c)).symm

end

end Cert.KernelIdeal.Hand

end
-- ==== Proof.KI.PoolMath.lean ====
import proofs.«419905_j28260884807710_1_alg».proof.Proof.KI.PoolDefs
import proofs.«419905_j28260884807710_1_alg».proof.Proof.KI.Specs
import proofs.«419905_j28260884807710_1_alg».proof.Proof.KI.Idx
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic
open scoped BigOperators

abbrev idAt (r : Fin 5000) : S5000x1.Idx := fun a => match a with
  | ⟨0, _⟩ => ⟨r.val, r.isLt⟩
  | ⟨1, _⟩ => ⟨0, Nat.one_pos⟩

abbrev ftAt (r : Fin 5000) (f : Fin 128) : S5000x128.Idx := fun a => match a with
  | ⟨0, _⟩ => ⟨r.val, r.isLt⟩
  | ⟨1, _⟩ => ⟨f.val, f.isLt⟩

abbrev hotAt (r : Fin 5000) (b : Fin 256) : S5000x256.Idx := fun a => match a with
  | ⟨0, _⟩ => ⟨r.val, r.isLt⟩
  | ⟨1, _⟩ => ⟨b.val, b.isLt⟩

abbrev sumAt (b : Fin 256) (f : Fin 128) : S256x128.Idx := fun a => match a with
  | ⟨0, _⟩ => ⟨b.val, b.isLt⟩
  | ⟨1, _⟩ => ⟨f.val, f.isLt⟩

theorem eq_sumAt (y : S256x128.Idx) : ∃ (b : Fin 256) (f : Fin 128), y = sumAt b f :=
  ⟨y 0, y 1, funext fun a => match a with
    | ⟨0, _⟩ => rfl
    | ⟨1, _⟩ => rfl⟩

theorem eq_col256At (y : S256x1.Idx) : ∃ b : Fin 256, y = col256At b :=
  ⟨y 0, funext fun a => match a with
    | ⟨0, _⟩ => rfl
    | ⟨1, _⟩ => Fin.ext (by
        have h : (y 1).val < 1 := (y 1).isLt
        show (y 1).val = 0
        omega)⟩

theorem one_bf16 : Ideal.ofBits .bf16 0x3F80#16 = 1 := IdealRules.sign_bit.ideal_onePat .bf16

theorem poolPay1_apply (y : S256x128.Idx) : k6_pay1 (F := Ideal) y = 0 := by
  unfold k6_pay1
  show shapeCast S256x128 (broadcast S256x128 (Scalar.ofBits (F := Ideal) .f32 0x00000000#32)) shapeCasts_S256x128_S256x128 y = 0
  rw [shapeCast_self]
  exact Ideal.ofBits_zero_f32

theorem pay2_apply (y : S256x1.Idx) : k6_pay2 (F := Ideal) y = 0 := by
  unfold k6_pay2
  show shapeCast S256x1 (broadcast S256x1 (Scalar.ofBits (F := Ideal) .f32 0x00000000#32)) shapeCasts_S256x1_S256x1 y = 0
  rw [shapeCast_self]
  exact Ideal.ofBits_zero_f32

theorem toInt_bit_true : ((BitVec.ofBool true).setWidth 32).toInt = 1 := by decide
theorem toInt_bit_false : ((BitVec.ofBool false).setWidth 32).toInt = 0 := by decide

theorem onehot_apply (v3 : Vec Ideal S5000x1 .i32) (r : Fin 5000) (b : Fin 256) :
    k6_pay3 (F := Ideal) v3 (hotAt r b) = if v3 (idAt r) = BitVec.ofNat 32 b.val then (1 : EReal) else 0 := by
  have h6 : broadcastTo S5000x256 (shapeCast S5000x1 v3 shapeCasts_S5000x1_S5000x1) broadcasts_S5000x1_S5000x256 (hotAt r b)
      = v3 (idAt r) := by
    rw [shapeCast_self]
    refine broadcastTo_apply v3 _ (hotAt r b) (idAt r) fun a => ?_
    match a with
    | ⟨0, _⟩ =>
      show r.val = if (5000 : ℕ) = 1 then 0 else r.val
      rw [if_neg (by omega)]
    | ⟨1, _⟩ =>
      show (0 : ℕ) = if (1 : ℕ) = 1 then 0 else _
      rw [if_pos rfl]
  have h5 : iota .tc S5000x256 32 [1] iota_S5000x256_d1_w32 (hotAt r b) = BitVec.ofNat 32 b.val :=
    iota_single_apply .tc S5000x256 32 1 iota_S5000x256_d1_w32 (hotAt r b)
  unfold k6_pay3
  show ((((BitVec.ofBool
      (broadcastTo S5000x256 (shapeCast S5000x1 v3 shapeCasts_S5000x1_S5000x1) broadcasts_S5000x1_S5000x256 (hotAt r b)
        == iota .tc S5000x256 32 [1] iota_S5000x256_d1_w32 (hotAt r b))).setWidth 32).toInt : ℝ) : EReal) = _
  rw [h6, h5]
  by_cases h : v3 (idAt r) = BitVec.ofNat 32 b.val
  · rw [if_pos h, beq_iff_eq.mpr h, toInt_bit_true, Int.cast_one, EReal.coe_one]
  · rw [if_neg h, beq_eq_false_iff_ne.mpr h, toInt_bit_false, Int.cast_zero, EReal.coe_zero]

theorem ps_l0 (i : S256x128.Idx) (q : dot_S5000x256_S5000x128_S256x128_0_0_1_1_n_n.contr.Idx) : (dot_S5000x256_S5000x128_S256x128_0_0_1_1_n_n.lhsIdx i q 0).val = (q ⟨0, by decide⟩).val :=
  dot_S5000x256_S5000x128_S256x128_0_0_1_1_n_n.lhsIdx_val_of_single rfl i q
theorem ps_l1 (i : S256x128.Idx) (q : dot_S5000x256_S5000x128_S256x128_0_0_1_1_n_n.contr.Idx) : (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
theorem ps_r0 (i : S256x128.Idx) (q : dot_S5000x256_S5000x128_S256x128_0_0_1_1_n_n.contr.Idx) : (dot_S5000x256_S5000x128_S256x128_0_0_1_1_n_n.rhsIdx i q 0).val = (q ⟨0, by decide⟩).val :=
  dot_S5000x256_S5000x128_S256x128_0_0_1_1_n_n.rhsIdx_val_of_single rfl i q
theorem ps_r1 (i : S256x128.Idx) (q : dot_S5000x256_S5000x128_S256x128_0_0_1_1_n_n.contr.Idx) : (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

theorem pc_l0 (i : S256x1.Idx) (q : dot_S5000x256_S5000x1_S256x1_0_0_1_1_n_n.contr.Idx) : (dot_S5000x256_S5000x1_S256x1_0_0_1_1_n_n.lhsIdx i q 0).val = (q ⟨0, by decide⟩).val :=
  dot_S5000x256_S5000x1_S256x1_0_0_1_1_n_n.lhsIdx_val_of_single rfl i q
theorem pc_l1 (i : S256x1.Idx) (q : dot_S5000x256_S5000x1_S256x1_0_0_1_1_n_n.contr.Idx) : (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl

theorem pay4_apply (v3 : Vec Ideal S5000x1 .i32) (v11 : Vec Ideal S5000x128 .f32) (v15 : Vec Ideal S256x128 .f32)
    (b : Fin 256) (f : Fin 128) :
    k6_pay4 (F := Ideal) v3 v11 v15 (sumAt b f)
      = v15 (sumAt b f) + ∑ r : Fin 5000, (if v3 (idAt r) = BitVec.ofNat 32 b.val then v11 (ftAt r f) else (0 : EReal)) := by
  unfold k6_pay4
  show shapeCast S256x128 (addf v15 (matmul dot_S5000x256_S5000x128_S256x128_0_0_1_1_n_n none (k6_pay3 (F := Ideal) v3)
      (truncf .bf16 (shapeCast S5000x128 v11 shapeCasts_S5000x128_S5000x128) bitsLt_bf16_f32)
      (constant S256x128 .f32 0x00000000#32))) shapeCasts_S256x128_S256x128 (sumAt b f) = _
  rw [shapeCast_self, shapeCast_self]
  refine congrArg (v15 (sumAt b f) + ·) ?_
  refine (Ideal.matmul_constant_zero_apply dot_S5000x256_S5000x128_S256x128_0_0_1_1_n_n none _ _ (sumAt b f)).trans ?_
  rw [← Equiv.sum_comp (ValueIdx.contrEquiv1 dot_S5000x256_S5000x128_S256x128_0_0_1_1_n_n 5000 rfl rfl).symm]
  refine Finset.sum_congr rfl fun r _ => ?_
  have hk := ValueIdx.contrEquiv1_symm_val dot_S5000x256_S5000x128_S256x128_0_0_1_1_n_n 5000 rfl rfl r
  have el : dot_S5000x256_S5000x128_S256x128_0_0_1_1_n_n.lhsIdx (sumAt b f) ((ValueIdx.contrEquiv1 dot_S5000x256_S5000x128_S256x128_0_0_1_1_n_n 5000 rfl rfl).symm r) = hotAt r b := funext fun a => Fin.ext (by
    match a with
    | ⟨0, _⟩ => exact (ps_l0 _ _).trans hk
    | ⟨1, _⟩ => exact ps_l1 _ _)
  have er : dot_S5000x256_S5000x128_S256x128_0_0_1_1_n_n.rhsIdx (sumAt b f) ((ValueIdx.contrEquiv1 dot_S5000x256_S5000x128_S256x128_0_0_1_1_n_n 5000 rfl rfl).symm r) = ftAt r f := funext fun a => Fin.ext (by
    match a with
    | ⟨0, _⟩ => exact (ps_r0 _ _).trans hk
    | ⟨1, _⟩ => exact ps_r1 _ _)
  rw [el, er]
  show k6_pay3 (F := Ideal) v3 (hotAt r b) * v11 (ftAt r f) = _
  rw [onehot_apply]
  by_cases h : v3 (idAt r) = BitVec.ofNat 32 b.val
  · rw [if_pos h, if_pos h, one_mul]
  · rw [if_neg h, if_neg h, zero_mul]

theorem pay5_apply (v3 : Vec Ideal S5000x1 .i32) (v21 : Vec Ideal S256x1 .f32) (b : Fin 256) :
    k6_pay5 (F := Ideal) v3 v21 (col256At b)
      = v21 (col256At b) + ∑ r : Fin 5000, (if v3 (idAt r) = BitVec.ofNat 32 b.val then (1 : EReal) else 0) := by
  unfold k6_pay5
  show shapeCast S256x1 (addf v21 (matmul dot_S5000x256_S5000x1_S256x1_0_0_1_1_n_n none (k6_pay3 (F := Ideal) v3)
      (broadcast S5000x1 (Scalar.ofBits (F := Ideal) .bf16 0x3F80#16))
      (constant S256x1 .f32 0x00000000#32))) shapeCasts_S256x1_S256x1 (col256At b) = _
  rw [shapeCast_self]
  refine congrArg (v21 (col256At b) + ·) ?_
  refine (Ideal.matmul_constant_zero_apply dot_S5000x256_S5000x1_S256x1_0_0_1_1_n_n none _ _ (col256At b)).trans ?_
  rw [← Equiv.sum_comp (ValueIdx.contrEquiv1 dot_S5000x256_S5000x1_S256x1_0_0_1_1_n_n 5000 rfl rfl).symm]
  refine Finset.sum_congr rfl fun r _ => ?_
  have hk := ValueIdx.contrEquiv1_symm_val dot_S5000x256_S5000x1_S256x1_0_0_1_1_n_n 5000 rfl rfl r
  have el : dot_S5000x256_S5000x1_S256x1_0_0_1_1_n_n.lhsIdx (col256At b) ((ValueIdx.contrEquiv1 dot_S5000x256_S5000x1_S256x1_0_0_1_1_n_n 5000 rfl rfl).symm r) = hotAt r b := funext fun a => Fin.ext (by
    match a with
    | ⟨0, _⟩ => exact (pc_l0 _ _).trans hk
    | ⟨1, _⟩ => exact pc_l1 _ _)
  rw [el]
  show k6_pay3 (F := Ideal) v3 (hotAt r b) * Ideal.ofBits .bf16 0x3F80#16 = _
  rw [one_bf16, mul_one, onehot_apply]

def blkSum (bB : Fin 20 → Vec Ideal S5000x1 .i32) (bH : Fin 20 → Vec Ideal S5000x128 .f32) (b : Fin 256) (f : Fin 128)
    (t : Fin 20) : EReal :=
  ∑ r : Fin 5000, if bB t (idAt r) = BitVec.ofNat 32 b.val then bH t (ftAt r f) else (0 : EReal)
def blkCnt (bB : Fin 20 → Vec Ideal S5000x1 .i32) (b : Fin 256) (t : Fin 20) : EReal :=
  ∑ r : Fin 5000, if bB t (idAt r) = BitVec.ofNat 32 b.val then (1 : EReal) else 0

theorem acc_sums (bB : Fin 20 → Vec Ideal S5000x1 .i32) (bH : Fin 20 → Vec Ideal S5000x128 .f32) (b : Fin 256) (f : Fin 128)
    (n : ℕ) : (poolAcc bB bH n).1 (sumAt b f) = ∑ t ∈ Finset.range (n + 1), blkSum bB bH b f (pt20 t) := by
  induction n with
  | zero =>
    rw [poolAcc_zero]
    show k6_pay4 (F := Ideal) (bB (pt20 0)) (bH (pt20 0)) (k6_pay1 (F := Ideal)) (sumAt b f) = _
    rw [pay4_apply, poolPay1_apply, Finset.sum_range_succ, Finset.sum_range_zero]
    rfl
  | succ n ih =>
    rw [poolAcc_succ]
    show k6_pay4 (F := Ideal) (bB (pt20 (n + 1))) (bH (pt20 (n + 1))) (poolAcc bB bH n).1 (sumAt b f) = _
    rw [pay4_apply, ih, Finset.sum_range_succ _ (n + 1)]
    rfl

theorem acc_cnts (bB : Fin 20 → Vec Ideal S5000x1 .i32) (bH : Fin 20 → Vec Ideal S5000x128 .f32) (b : Fin 256)
    (n : ℕ) : (poolAcc bB bH n).2 (col256At b) = ∑ t ∈ Finset.range (n + 1), blkCnt bB b (pt20 t) := by
  induction n with
  | zero =>
    rw [poolAcc_zero]
    show k6_pay5 (F := Ideal) (bB (pt20 0)) (k6_pay2 (F := Ideal)) (col256At b) = _
    rw [pay5_apply, pay2_apply, Finset.sum_range_succ, Finset.sum_range_zero]
    rfl
  | succ n ih =>
    rw [poolAcc_succ]
    show k6_pay5 (F := Ideal) (bB (pt20 (n + 1))) (poolAcc bB bH n).2 (col256At b) = _
    rw [pay5_apply, ih, Finset.sum_range_succ _ (n + 1)]
    rfl

def nodeOf : Fin 20 × Fin 5000 ≃ Fin 100000 where
  toFun p := ⟨5000 * p.1.val + p.2.val, by have h1 := p.1.isLt; have h2 := p.2.isLt; omega⟩
  invFun n := (⟨n.val / 5000, by have h := n.isLt; omega⟩, ⟨n.val % 5000, Nat.mod_lt _ (by decide)⟩)
  left_inv p := by
    have h1 := p.1.isLt
    have h2 := p.2.isLt
    refine Prod.ext (Fin.ext ?_) (Fin.ext ?_)
    · show (5000 * p.1.val + p.2.val) / 5000 = p.1.val
      omega
    · show (5000 * p.1.val + p.2.val) % 5000 = p.2.val
      omega
  right_inv n := Fin.ext (by
    show 5000 * (n.val / 5000) + n.val % 5000 = n.val
    omega)

theorem sum_nodes (G : Fin 100000 → EReal) : ∑ n, G n = ∑ t : Fin 20, ∑ r : Fin 5000, G (nodeOf (t, r)) := by
  rw [← Equiv.sum_comp nodeOf G, Fintype.sum_prod_type]

theorem gidRow_idAt (t : Fin 20) (r : Fin 5000) : gidRow t (idAt r) = colAt (nodeOf (t, r)) :=
  funext fun a => match a with
    | ⟨0, _⟩ => rfl
    | ⟨1, _⟩ => rfl
theorem featRow_ftAt (t : Fin 20) (r : Fin 5000) (f : Fin 128) : featRow t (ftAt r f) = at128 (nodeOf (t, r)) f :=
  funext fun a => match a with
    | ⟨0, _⟩ => rfl
    | ⟨1, _⟩ => rfl

theorem pt20_val (t : Fin 20) : pt20 t.val = t := Fin.ext (Nat.mod_eq_of_lt t.isLt)

theorem pool_sums (Bt : Vec Ideal S100000x1 .i32) (H : Vec Ideal S100000x128 .f32)
    (bB : Fin 20 → Vec Ideal S5000x1 .i32) (bH : Fin 20 → Vec Ideal S5000x128 .f32)
    (hB : ∀ t y, bB t y = Bt (gidRow t y)) (hH : ∀ t y, bH t y = H (featRow t y)) :
    (poolAcc bB bH 19).1 = poolSumSpec (fun n => Bt (colAt n)) H := by
  funext y
  obtain ⟨b, f, rfl⟩ := eq_sumAt y
  rw [acc_sums]
  unfold poolSumSpec
  show ∑ t ∈ Finset.range 20, blkSum bB bH b f (pt20 t)
    = ∑ n : Fin 100000, if Bt (colAt n) = BitVec.ofNat 32 b.val then H (at128 n f) else (0 : EReal)
  rw [sum_nodes, ← Fin.sum_univ_eq_sum_range (fun t => blkSum bB bH b f (pt20 t)) 20]
  refine Finset.sum_congr rfl fun t _ => ?_
  show blkSum bB bH b f (pt20 t.val) = _
  rw [pt20_val]
  unfold blkSum
  refine Finset.sum_congr rfl fun r _ => ?_
  rw [hB, hH, gidRow_idAt, featRow_ftAt]

theorem pool_cnts (Bt : Vec Ideal S100000x1 .i32)
    (bB : Fin 20 → Vec Ideal S5000x1 .i32) (bH : Fin 20 → Vec Ideal S5000x128 .f32)
    (hB : ∀ t y, bB t y = Bt (gidRow t y)) :
    (poolAcc bB bH 19).2 = fun i => poolCntSpec (fun n => Bt (colAt n)) ⟨(i 0).val, (i 0).isLt⟩ := by
  funext y
  obtain ⟨b, rfl⟩ := eq_col256At y
  rw [acc_cnts]
  unfold poolCntSpec
  show ∑ t ∈ Finset.range 20, blkCnt bB b (pt20 t)
    = ∑ n : Fin 100000, if Bt (colAt n) = BitVec.ofNat 32 b.val then (1 : EReal) else 0
  rw [sum_nodes, ← Fin.sum_univ_eq_sum_range (fun t => blkCnt bB b (pt20 t)) 20]
  refine Finset.sum_congr rfl fun t _ => ?_
  show blkCnt bB b (pt20 t.val) = _
  rw [pt20_val]
  unfold blkCnt
  refine Finset.sum_congr rfl fun r _ => ?_
  rw [hB, gidRow_idAt]

end Cert.KernelIdeal.Hand

end
-- ==== Proof.KI.BridgeC.lean ====
import proofs.«419905_j28260884807710_1_alg».proof.Proof.KI.BridgeA
import proofs.«419905_j28260884807710_1_alg».proof.Proof.KI.PoolMath

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.StableHlo
open Cert.ReferenceIdeal.Read

variable (m : (ℓ : Loc nD τ sig) → Buf (Elt Ideal) ℓ) (c : Dev nD)

theorem arg2_at_U10_C : U10 m c (Proc.devRef .tc main_arg2) = U0 m c (Proc.devRef .tc main_arg2) :=
  (U10_keep m c main_arg2 (by decide)).trans <| (U9_keep m c main_arg2 (by decide)).trans <| (U8_keep m c main_arg2 (by decide)).trans <| (U7_keep m c main_arg2 (by decide)).trans <| (U6_keep m c main_arg2 (by decide)).trans <| (U5_keep m c main_arg2 (by decide)).trans <| (U4_keep m c main_arg2 (by decide)).trans <| (U3_keep m c main_arg2 (by decide)).trans <| (U2_keep m c main_arg2 (by decide)).trans <| U1_keep m c main_arg2 (by decide)

theorem st11_gids : atTc (U11 m) c main_v84 = shapeCast S100000x1 (X2 m c) shapeCasts_S100000_S100000x1 := by
  show StableHlo.after hostOps6 (U10 m c) (Proc.devRef .tc main_v84) = _
  after_results
  rw [arg2_at_U10_C]
  rfl

theorem gid_col_apply_C (n : Fin 100000) : atTc (U11 m) c main_v84 (colAt n) = X2 m c (nodeAt n) := by
  rw [st11_gids]
  refine shapeCast_apply (X2 m c) shapeCasts_S100000_S100000x1 (colAt n) (nodeAt n) ?_
  rw [Shape.rowMajor_val_one, Shape.rowMajor_val_two]
  show n.val = n.val * 1 + 0
  omega

theorem idx6_C : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

theorem blk6_gid_row_C (A : IVec S100000x1 32) (t : Fin cfg6.N) (y : S5000x1.Idx) :
    ((cfg6.win 0).blk t).view.read (Elt Ideal) A y = A (gidRow ⟨t.val, Nat.lt_of_lt_of_eq t.isLt N_6⟩ y) := by
  obtain ⟨e0, e1, e2, e3⟩ := idx6_C t
  show A (((cfg6.win 0).blk t).view.emb y) = _
  refine congrArg A (funext fun a => Fin.ext ?_)
  match a with
  | ⟨0, _⟩ => show win6_0.index t (0 : Fin 2) * 5000 + 1 * (y 0).val = 5000 * t.val + (y 0).val; omega
  | ⟨1, _⟩ => show win6_0.index t (1 : Fin 2) * 1 + 1 * (y 1).val = (y 1).val; omega

theorem blk6_feat_row_C (A : FVec Ideal S100000x128 .f32) (t : Fin cfg6.N) (y : S5000x128.Idx) :
    ((cfg6.win 1).blk t).view.read (Elt Ideal) A y = A (featRow ⟨t.val, Nat.lt_of_lt_of_eq t.isLt N_6⟩ y) := by
  obtain ⟨e0, e1, e2, e3⟩ := idx6_C t
  show A (((cfg6.win 1).blk t).view.emb y) = _
  refine congrArg A (funext fun a => Fin.ext ?_)
  match a with
  | ⟨0, _⟩ => show win6_1.index t (0 : Fin 2) * 5000 + 1 * (y 0).val = 5000 * t.val + (y 0).val; omega
  | ⟨1, _⟩ => show win6_1.index t (1 : Fin 2) * 128 + 1 * (y 1).val = (y 1).val; omega

theorem gidBlk6_row (t : Fin 20) (y : S5000x1.Idx) :
    gidBlk6 (atTc (U11 m)) c t y = atTc (U11 m) c main_v84 (gidRow t y) :=
  blk6_gid_row_C (atTc (U11 m) c main_v84) ⟨t.val, by rw [show cfg6.N = 20 from N_6]; exact t.isLt⟩ y

theorem featBlk6_row (t : Fin 20) (y : S5000x128.Idx) :
    featBlk6 (atTc (U11 m)) c t y = atTc (U11 m) c main_v83 (featRow t y) :=
  blk6_feat_row_C (atTc (U11 m) c main_v83) ⟨t.val, by rw [show cfg6.N = 20 from N_6]; exact t.isLt⟩ y

abbrev gidArr_C : IVec S100000x1 32 := atTc (U11 m) c main_v84
abbrev featArr_C : FVec Ideal S100000x128 .f32 := atTc (U11 m) c main_v83

theorem gidArr_eq_C : (fun n : Fin 100000 => gidArr_C m c (colAt n)) = fun n => X2 m c (nodeAt n) :=
  funext (gid_col_apply_C m c)

theorem st12_sums
    (hh3 : atTc (U10 m) c main_v83 = val_main_v122 (F := Ideal) (X0 m c) (X1 m c) (X3 m c) (X4 m c) (X5 m c) (X6 m c) (X7 m c) (X8 m c) (X9 m c) (X10 m c) (X11 m c) (X12 m c) (X13 m c) (X14 m c) (X15 m c) (X16 m c)) :
    atTc (U12 m) c main_v85_0 = val_main_v125 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) := by
  refine (U12_arr m c 2).trans ((arrAt6_2 (atTc (U11 m)) c).trans ?_)
  unfold acc6
  refine (pool_sums (gidArr_C m c) (featArr_C m c) _ _ (gidBlk6_row m c) (featBlk6_row m c)).trans ?_
  have eH : featArr_C m c = val_main_v122 (F := Ideal) (X0 m c) (X1 m c) (X3 m c) (X4 m c) (X5 m c) (X6 m c) (X7 m c) (X8 m c) (X9 m c) (X10 m c) (X11 m c) (X12 m c) (X13 m c) (X14 m c) (X15 m c) (X16 m c) :=
    (U11_keep m c main_v83 (by decide)).trans hh3
  rw [gidArr_eq_C, eH]
  exact (ref_sums (X0 m c) (X1 m c) (X2 m c) (X3 m c) (X4 m c) (X5 m c) (X6 m c) (X7 m c) (X8 m c) (X9 m c) (X10 m c) (X11 m c) (X12 m c) (X13 m c) (X14 m c) (X15 m c) (X16 m c)).symm

theorem st12_cnts :
    atTc (U12 m) c main_v85_1 = fun i => val_main_v129 (F := Ideal) (X2 m c) (graphAt ⟨(i 0).val, (i 0).isLt⟩) := by
  refine (U12_arr m c 3).trans ((arrAt6_3 (atTc (U11 m)) c).trans ?_)
  unfold acc6
  refine (pool_cnts (gidArr_C m c) _ _ (gidBlk6_row m c)).trans ?_
  rw [gidArr_eq_C, ref_cnts]
  rfl

theorem out_apply_C (A : FVec Ideal S256x128 .f32) (C : FVec Ideal S256x1 .f32) (i : S256x128.Idx) :
    Host.divf A (broadcastInDim S256x128 ![0, 1] bcast_S256x1_S256x128_0_1
        (maximumf C (broadcastInDim S256x1 ![] bcast_S_S256x1 (constant (F := Ideal) S_ .f32 0x3F800000#32)))) i
      = FloatOps.hostDivf (F := Ideal) (φ := .f32) (A i)
          (FloatOps.maximumf (C (col256At ⟨(i 0).val, (i 0).isLt⟩)) (FloatOps.ofBits .f32 0x3F800000#32)) := by
  refine congrArg (FloatOps.hostDivf (F := Ideal) (φ := .f32) (A i)) ?_
  refine (broadcastInDim_apply _ bcast_S256x1_S256x128_0_1 _ i (col256At ⟨(i 0).val, (i 0).isLt⟩) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])).trans ?_
  refine congrArg (FloatOps.maximumf (F := Ideal) (φ := .f32) (C (col256At ⟨(i 0).val, (i 0).isLt⟩))) ?_
  exact broadcastInDim_apply _ bcast_S_S256x1 _ _ (fun a => a.elim0) (fun a => a.elim0)

theorem st13_out
    (hh3 : atTc (U10 m) c main_v83 = val_main_v122 (F := Ideal) (X0 m c) (X1 m c) (X3 m c) (X4 m c) (X5 m c) (X6 m c) (X7 m c) (X8 m c) (X9 m c) (X10 m c) (X11 m c) (X12 m c) (X13 m c) (X14 m c) (X15 m c) (X16 m c)) :
    atTc (U13 m) c main_v89 = val_main_v134 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) := by
  have e : atTc (U13 m) c main_v89
      = Host.divf (U12 m c (Proc.devRef .tc main_v85_0)) (broadcastInDim S256x128 ![0, 1] bcast_S256x1_S256x128_0_1
          (maximumf (U12 m c (Proc.devRef .tc main_v85_1)) (broadcastInDim S256x1 ![] bcast_S_S256x1 (constant (F := Ideal) S_ .f32 0x3F800000#32)))) := by
    show StableHlo.after hostOps7 (U12 m c) (Proc.devRef .tc main_v89) = _
    after_results
  have hs : U12 m c (Proc.devRef .tc main_v85_0) = val_main_v125 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) := st12_sums m c hh3
  have hc : U12 m c (Proc.devRef .tc main_v85_1)
      = fun i => val_main_v129 (F := Ideal) (X2 m c) (graphAt ⟨(i 0).val, (i 0).isLt⟩) := st12_cnts m c
  rw [e, hs, hc]
  funext i
  rw [out_apply_C, ref_out_apply]
  rfl

end Cert.KernelIdeal.Hand

end
-- ==== Proof.lean ====
import proofs.«419905_j28260884807710_1_alg».proof.Defs
import proofs.«419905_j28260884807710_1_alg».proof.Proof.Gen.Kernel
import proofs.«419905_j28260884807710_1_alg».proof.Proof.Gen.KernelIdeal
import proofs.«419905_j28260884807710_1_alg».proof.Proof.Gen.ReferenceIdeal
import proofs.«419905_j28260884807710_1_alg».proof.Proof.Gen.Pre_finite_inputs
import proofs.«419905_j28260884807710_1_alg».proof.Proof.Gen.ReferenceIdeal.Run
import proofs.«419905_j28260884807710_1_alg».proof.Proof.Gen.ReferenceIdeal.Read
import proofs.«419905_j28260884807710_1_alg».proof.Proof.KB.Run
import proofs.«419905_j28260884807710_1_alg».proof.Proof.KI.Run
import proofs.«419905_j28260884807710_1_alg».proof.Proof.KI.BridgeA
import proofs.«419905_j28260884807710_1_alg».proof.Proof.KI.BridgeB
import proofs.«419905_j28260884807710_1_alg».proof.Proof.KI.BridgeC
import Idealize.ShloMosaic.Adequacy
import Idealize.ShloMosaic.Init

noncomputable section

namespace Cert.Proof

open Idealize.ShloMosaic Idealize.SL.Sem

/-- Every unscoped buffer ends at the last valuation of the fold, and no item writes an argument. -/
theorem frame_kernel : Cert.frame_Kernel := fun m ρ _ =>
  (θ_run Cert.Kernel.defs _ _).mono (fun r h c =>
    have k := Cert.Kernel.Hand.arg_kept m r.2.mem c (h c)
    by refine ⟨?_, ?_, ?_, ?_, ?_, ?_, ?_, ?_, ?_, ?_, ?_, ?_, ?_, ?_, ?_, ?_, ?_⟩ <;> exact k _ (by decide))
    (Cert.Kernel.Hand.run_all m ρ)

open Cert.KernelIdeal Cert.KernelIdeal.Hand

theorem frame_kernelIdeal : Cert.frame_KernelIdeal := fun m ρ _ =>
  (θ_run Cert.KernelIdeal.defs _ _).mono (fun r h c =>
    have k := arg_kept m r.2.mem c (h c)
    by refine ⟨?_, ?_, ?_, ?_, ?_, ?_, ?_, ?_, ?_, ?_, ?_, ?_, ?_, ?_, ?_, ?_, ?_⟩ <;> exact k _ (by decide))
    (run_all m ρ)

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the argument arrays in the result: the kernel program by the
    stage equalities composed layer by layer, the reference by its run. -/
theorem algebraic : Cert.algebraic_KernelIdeal_ReferenceIdeal := by
  intro m ρ m' ρ' _ hagree
  refine ⟨fun c => atTc (U13 m) c main_v89, ?_, ?_⟩
  · exact (θ_run Cert.KernelIdeal.defs _ _).mono (fun r h c =>
      have k := arg_kept m r.2.mem c (h c)
      by refine ⟨h c _ (mem_uc main_v89 (by decide)), ?_, ?_, ?_, ?_, ?_, ?_, ?_, ?_, ?_, ?_, ?_, ?_, ?_, ?_, ?_, ?_, ?_⟩ <;> exact k _ (by decide))
      (run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v134_eq, e0, e1, e2, e3, e4, e5, e6, e7, e8, e9, e10, e11, e12, e13, e14, e15, e16]
    exact (st13_out m c (st10_h3 m c (st1_src m c) (st1_dst m c) (st1_norm m c) (st1_dinv m c) (st5_lin2 m c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
